-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1 : Shape := ⟨1, ![1]⟩
abbrev S2000000 : Shape := ⟨1, ![2000000]⟩
abbrev S2000000x3 : Shape := ⟨2, ![2000000, 3]⟩
abbrev S1000000x1 : Shape := ⟨2, ![1000000, 1]⟩
abbrev S2000000x2 : Shape := ⟨2, ![2000000, 2]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S1 : S_.BroadcastsInDim S1 (![] : Fin 0 → Fin S1.rank)
  reducesTo_S1_S_d0 : S1.ReducesTo [0] S_
  bcast_S_S2000000 : S_.BroadcastsInDim S2000000 (![] : Fin 0 → Fin S2000000.rank)
  reducesTo_S2000000_S_d0 : S2000000.ReducesTo [0] S_
  bcast_S_S2000000x3 : S_.BroadcastsInDim S2000000x3 (![] : Fin 0 → Fin S2000000x3.rank)
  reducesTo_S2000000x3_S_d0_1 : S2000000x3.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S2000000x2 : S_.BroadcastsInDim S2000000x2 (![] : Fin 0 → Fin S2000000x2.rank)
  reducesTo_S2000000x2_S_d0_1 : S2000000x2.ReducesTo [0, 1] S_

variable [Facts]

def fn_part3 {F : FTy → Type} [FloatOps F] (main_arg11 : IVec S2000000x2 32) (main_v48 : IVec S_ 1) (main_v49 : FVec F S1000000x1 .f32) (main_v50 : FVec F S1000000x1 .f32) : IVec S_ 1 :=
  let main_v51 : IVec S1000000x1 1 := cmpf .olt main_v49 main_v50
  let main_c_19 : IVec S_ 1 := constantI S_ 1 1#1
  let main_v52 : IVec S_ 1 := (fun x v => Host.reduce IntOp.andi x v reducesTo_S1000000x1_S_d0_1 h_S_) main_v51 main_c_19
  let main_v53 : IVec S_ 1 := andi main_v48 main_v52
  let main_c_20 : IVec S_ 32 := constantI S_ 32 0#32
  let main_v54 : IVec S2000000x2 32 := broadcastInDim S2000000x2 ![] bcast_S_S2000000x2 main_c_20
  let main_v55 : IVec S2000000x2 1 := cmpi .sge main_arg11 main_v54
  let main_c_21 : IVec S_ 32 := constantI S_ 32 1000000#32
  let main_v56 : IVec S2000000x2 32 := broadcastInDim S2000000x2 ![] bcast_S_S2000000x2 main_c_21
  let main_v57 : IVec S2000000x2 1 := cmpi .slt main_arg11 main_v56
  let main_v58 : IVec S2000000x2 1 := andi main_v55 main_v57
  let main_c_22 : IVec S_ 1 := constantI S_ 1 1#1
  let main_v59 : IVec S_ 1 := (fun x v => Host.reduce IntOp.andi x v reducesTo_S2000000x2_S_d0_1 h_S_) main_v58 main_c_22
  let main_v60 : IVec S_ 1 := andi main_v53 main_v59
  main_v60

def fn_part2 {F : FTy → Type} [FloatOps F] (main_arg7 : FVec F S2000000x3 .f32) (main_arg8 : FVec F S1000000x3 .f32) (main_arg9 : FVec F S1000000x1 .f32) (main_arg10 : FVec F S1000000x1 .f32) (main_arg11 : IVec S2000000x2 32) (main_v33 : IVec S_ 1) : IVec S_ 1 :=
  let main_v34 : FVec F S2000000x3 .f32 := Host.absf main_arg7
  let main_cst_12 : FVec F S_ .f32 := constant S_ .f32 0x7F800000#32
  let main_v35 : FVec F S2000000x3 .f32 := broadcastInDim S2000000x3 ![] bcast_S_S2000000x3 main_cst_12
  let main_v36 : IVec S2000000x3 1 := cmpf .olt main_v34 main_v35
  let main_c_13 : IVec S_ 1 := constantI S_ 1 1#1
  let main_v37 : IVec S_ 1 := (fun x v => Host.reduce IntOp.andi x v reducesTo_S2000000x3_S_d0_1 h_S_) main_v36 main_c_13
  let main_v38 : IVec S_ 1 := andi main_v33 main_v37
  let main_v39 : FVec F S1000000x3 .f32 := Host.absf main_arg8
  let main_cst_14 : FVec F S_ .f32 := constant S_ .f32 0x7F800000#32
  let main_v40 : FVec F S1000000x3 .f32 := broadcastInDim S1000000x3 ![] bcast_S_S1000000x3 main_cst_14
  let main_v41 : IVec S1000000x3 1 := cmpf .olt main_v39 main_v40
  let main_c_15 : IVec S_ 1 := constantI S_ 1 1#1
  let main_v42 : IVec S_ 1 := (fun x v => Host.reduce IntOp.andi x v reducesTo_S1000000x3_S_d0_1 h_S_) main_v41 main_c_15
  let main_v43 : IVec S_ 1 := andi main_v38 main_v42
  let main_v44 : FVec F S1000000x1 .f32 := Host.absf main_arg9
  let main_cst_16 : FVec F S_ .f32 := constant S_ .f32 0x7F800000#32
  let main_v45 : FVec F S1000000x1 .f32 := broadcastInDim S1000000x1 ![] bcast_S_S1000000x1 main_cst_16
  let main_v46 : IVec S1000000x1 1 := cmpf .olt main_v44 main_v45
  let main_c_17 : IVec S_ 1 := constantI S_ 1 1#1
  let main_v47 : IVec S_ 1 := (fun x v => Host.reduce IntOp.andi x v reducesTo_S1000000x1_S_d0_1 h_S_) main_v46 main_c_17
  let main_v48 : IVec S_ 1 := andi main_v43 main_v47
  let main_v49 : FVec F S1000000x1 .f32 := Host.absf main_arg10
  let main_cst_18 : FVec F S_ .f32 := constant S_ .f32 0x7F800000#32
  let main_v50 : FVec F S1000000x1 .f32 := broadcastInDim S1000000x1 ![] bcast_S_S1000000x1 main_cst_18
  fn_part3 (F := F) main_arg11 main_v48 main_v49 main_v50

def fn_part1 {F : FTy → Type} [FloatOps F] (main_arg4 : FVec F S2000000 .f32) (main_arg5 : FVec F S2000000 .f32) (main_arg6 : FVec F S2000000 .f32) (main_arg7 : FVec F S2000000x3 .f32) (main_arg8 : FVec F S1000000x3 .f32) (main_arg9 : FVec F S1000000x1 .f32) (main_arg10 : FVec F S1000000x1 .f32) (main_arg11 : IVec S2000000x2 32) (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  let main_v19 : FVec F S2000000 .f32 := Host.absf main_arg4
  let main_cst_6 : FVec F S_ .f32 := constant S_ .f32 0x7F800000#32
  let main_v20 : FVec F S2000000 .f32 := broadcastInDim S2000000 ![] bcast_S_S2000000 main_cst_6
  let main_v21 : IVec S2000000 1 := cmpf .olt main_v19 main_v20
  let main_c_7 : IVec S_ 1 := constantI S_ 1 1#1
  let main_v22 : IVec S_ 1 := (fun x v => Host.reduce IntOp.andi x v reducesTo_S2000000_S_d0 h_S_) main_v21 main_c_7
  let main_v23 : IVec S_ 1 := andi main_v18 main_v22
  let main_v24 : FVec F S2000000 .f32 := Host.absf main_arg5
  let main_cst_8 : FVec F S_ .f32 := constant S_ .f32 0x7F800000#32
  let main_v25 : FVec F S2000000 .f32 := broadcastInDim S2000000 ![] bcast_S_S2000000 main_cst_8
  let main_v26 : IVec S2000000 1 := cmpf .olt main_v24 main_v25
  let main_c_9 : IVec S_ 1 := constantI S_ 1 1#1
  let main_v27 : IVec S_ 1 := (fun x v => Host.reduce IntOp.andi x v reducesTo_S2000000_S_d0 h_S_) main_v26 main_c_9
  let main_v28 : IVec S_ 1 := andi main_v23 main_v27
  let main_v29 : FVec F S2000000 .f32 := Host.absf main_arg6
  let main_cst_10 : FVec F S_ .f32 := constant S_ .f32 0x7F800000#32
  let main_v30 : FVec F S2000000 .f32 := broadcastInDim S2000000 ![] bcast_S_S2000000 main_cst_10
  let main_v31 : IVec S2000000 1 := cmpf .olt main_v29 main_v30
  let main_c_11 : IVec S_ 1 := constantI S_ 1 1#1
  let main_v32 : IVec S_ 1 := (fun x v => Host.reduce IntOp.andi x v reducesTo_S2000000_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1000000x3 .f32) (main_arg1 : FVec F S1 .f32) (main_arg2 : FVec F S1 .f32) (main_arg3 : FVec F S2000000 .f32) (main_arg4 : FVec F S2000000 .f32) (main_arg5 : FVec F S2000000 .f32) (main_arg6 : FVec F S2000000 .f32) (main_arg7 : FVec F S2000000x3 .f32) (main_arg8 : FVec F S1000000x3 .f32) (main_arg9 : FVec F S1000000x1 .f32) (main_arg10 : FVec F S1000000x1 .f32) (main_arg11 : IVec S2000000x2 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2000000 .f32 := Host.absf main_arg3
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_arg4 main_arg5 main_arg6 main_arg7 main_arg8 main_arg9 main_arg10 main_arg11 main_v13 main_v16
-- ==== Kernel.lean ====
abbrev S1000000x3 : Shape := ⟨2, ![1000000, 3]⟩
abbrev S1 : Shape := ⟨1, ![1]⟩
abbrev S2000000 : Shape := ⟨1, ![2000000]⟩
abbrev S2000000x3 : Shape := ⟨2, ![2000000, 3]⟩
abbrev S1000000x1 : Shape := ⟨2, ![1000000, 1]⟩
abbrev S2000000x2 : Shape := ⟨2, ![2000000, 2]⟩
abbrev S1000000 : Shape := ⟨1, ![1000000]⟩
abbrev S_ : Shape := ⟨0, ![]⟩
abbrev S2000000x1 : Shape := ⟨2, ![2000000, 1]⟩
abbrev S1x1 : Shape := ⟨2, ![1, 1]⟩
abbrev S2097152 : Shape := ⟨1, ![2097152]⟩
abbrev S16384x128 : Shape := ⟨2, ![16384, 128]⟩
abbrev S1024x128 : Shape := ⟨2, ![1024, 128]⟩
abbrev S4000000x3 : Shape := ⟨2, ![4000000, 3]⟩
abbrev S4000000 : Shape := ⟨1, ![4000000]⟩
abbrev S4000000x1 : Shape := ⟨2, ![4000000, 1]⟩
abbrev S3000000 : Shape := ⟨1, ![3000000]⟩
abbrev S3145728 : Shape := ⟨1, ![3145728]⟩
abbrev S24576x128 : Shape := ⟨2, ![24576, 128]⟩
abbrev S4096x128 : Shape := ⟨2, ![4096, 128]⟩
abbrev S1x128 : Shape := ⟨2, ![1, 128]⟩
abbrev S128 : Shape := ⟨1, ![128]⟩

abbrev nBuf : Space → Nat
  | .hbm => 272
  | .vmem => 43
  | .smem => 0
  | _ => 0

abbrev hbmTy0_0 (i : Nat) : BufTy := match i % 128 with
  | 0 => ⟨S1000000x3, .f32⟩
  | 1 => ⟨S1, .f32⟩
  | 2 => ⟨S1, .f32⟩
  | 3 => ⟨S2000000, .f32⟩
  | 4 => ⟨S2000000, .f32⟩
  | 5 => ⟨S2000000, .f32⟩
  | 6 => ⟨S2000000, .f32⟩
  | 7 => ⟨S2000000x3, .f32⟩
  | 8 => ⟨S1000000x3, .f32⟩
  | 9 => ⟨S1000000x1, .f32⟩
  | 10 => ⟨S1000000x1, .f32⟩
  | 11 => ⟨S2000000x2, .i32⟩
  | 12 => ⟨S1000000x1, .f32⟩
  | 13 => ⟨S1000000, .f32⟩
  | 14 => ⟨S_, .f32⟩
  | 15 => ⟨S1000000, .f32⟩
  | 16 => ⟨S1000000, .f32⟩
  | 17 => ⟨S1000000x1, .f32⟩
  | 18 => ⟨S1000000, .f32⟩
  | 19 => ⟨S_, .f32⟩
  | 20 => ⟨S1000000, .f32⟩
  | 21 => ⟨S1000000, .f32⟩
  | 22 => ⟨S1000000x1, .f32⟩
  | 23 => ⟨S1000000, .f32⟩
  | 24 => ⟨S_, .f32⟩
  | 25 => ⟨S1000000, .f32⟩
  | 26 => ⟨S1000000, .f32⟩
  | 27 => ⟨S2000000x1, .i32⟩
  | 28 => ⟨S2000000, .i32⟩
  | 29 => ⟨S2000000x1, .i32⟩
  | 30 => ⟨S2000000, .i32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S1, .i32⟩
  | 40 => ⟨S_, .i32⟩
  | 41 => ⟨S2000000x1, .i32⟩
  | 42 => ⟨S2000000x1, .i1⟩
  | 43 => ⟨S1x1, .i32⟩
  | 44 => ⟨S2000000x1, .i32⟩
  | 45 => ⟨S2000000x1, .i1⟩
  | 46 => ⟨S2000000x1, .i1⟩
  | 47 => ⟨S_, .i1⟩
  | 48 => ⟨S2000000, .i1⟩
  | 49 => ⟨S2000000, .f32⟩
  | 50 => ⟨S_, .f32⟩
  | 51 => ⟨S2000000, .f32⟩
  | 52 => ⟨S2000000, .f32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S2000000x1, .i32⟩
  | 61 => ⟨S1, .i32⟩
  | 62 => ⟨S_, .i32⟩
  | 63 => ⟨S2000000x1, .i32⟩
  | 64 => ⟨S2000000x1, .i1⟩
  | 65 => ⟨S1x1, .i32⟩
  | 66 => ⟨S2000000x1, .i32⟩
  | 67 => ⟨S2000000x1, .i1⟩
  | 68 => ⟨S2000000x1, .i1⟩
  | 69 => ⟨S_, .i1⟩
  | 70 => ⟨S2000000, .i1⟩
  | 71 => ⟨S2000000, .f32⟩
  | 72 => ⟨S_, .f32⟩
  | 73 => ⟨S2000000, .f32⟩
  | 74 => ⟨S2000000, .f32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i32⟩
  | 81 => ⟨S2000000, .i32⟩
  | 82 => ⟨S2000000x1, .i32⟩
  | 83 => ⟨S1, .i32⟩
  | 84 => ⟨S_, .i32⟩
  | 85 => ⟨S2000000x1, .i32⟩
  | 86 => ⟨S2000000x1, .i1⟩
  | 87 => ⟨S1x1, .i32⟩
  | 88 => ⟨S2000000x1, .i32⟩
  | 89 => ⟨S2000000x1, .i1⟩
  | 90 => ⟨S2000000x1, .i1⟩
  | 91 => ⟨S_, .i1⟩
  | 92 => ⟨S2000000, .i1⟩
  | 93 => ⟨S2000000, .f32⟩
  | 94 => ⟨S_, .f32⟩
  | 95 => ⟨S2000000, .f32⟩
  | 96 => ⟨S2000000, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S1, .i32⟩
  | 106 => ⟨S_, .i32⟩
  | 107 => ⟨S2000000x1, .i32⟩
  | 108 => ⟨S2000000x1, .i1⟩
  | 109 => ⟨S1x1, .i32⟩
  | 110 => ⟨S2000000x1, .i32⟩
  | 111 => ⟨S2000000x1, .i1⟩
  | 112 => ⟨S2000000x1, .i1⟩
  | 113 => ⟨S_, .i1⟩
  | 114 => ⟨S2000000, .i1⟩
  | 115 => ⟨S2000000, .f32⟩
  | 116 => ⟨S_, .f32⟩
  | 117 => ⟨S2000000, .f32⟩
  | 118 => ⟨S2000000, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S1, .i32⟩
  | _ => ⟨S1000000x3, .f32⟩

abbrev hbmTy0_1 (i : Nat) : BufTy := match i % 128 with
  | 0 => ⟨S_, .i32⟩
  | 1 => ⟨S2000000x1, .i32⟩
  | 2 => ⟨S2000000x1, .i1⟩
  | 3 => ⟨S1x1, .i32⟩
  | 4 => ⟨S2000000x1, .i32⟩
  | 5 => ⟨S2000000x1, .i1⟩
  | 6 => ⟨S2000000x1, .i1⟩
  | 7 => ⟨S_, .i1⟩
  | 8 => ⟨S2000000, .i1⟩
  | 9 => ⟨S2000000, .f32⟩
  | 10 => ⟨S_, .f32⟩
  | 11 => ⟨S2000000, .f32⟩
  | 12 => ⟨S2000000, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S1, .i32⟩
  | 22 => ⟨S_, .i32⟩
  | 23 => ⟨S2000000x1, .i32⟩
  | 24 => ⟨S2000000x1, .i1⟩
  | 25 => ⟨S1x1, .i32⟩
  | 26 => ⟨S2000000x1, .i32⟩
  | 27 => ⟨S2000000x1, .i1⟩
  | 28 => ⟨S2000000x1, .i1⟩
  | 29 => ⟨S_, .i1⟩
  | 30 => ⟨S2000000, .i1⟩
  | 31 => ⟨S2000000, .f32⟩
  | 32 => ⟨S_, .f32⟩
  | 33 => ⟨S2000000, .f32⟩
  | 34 => ⟨S2000000, .f32⟩
  | 35 => ⟨S2000000x1, .f32⟩
  | 36 => ⟨S2000000, .f32⟩
  | 37 => ⟨S2000000x1, .f32⟩
  | 38 => ⟨S2000000, .f32⟩
  | 39 => ⟨S_, .f32⟩
  | 40 => ⟨S_, .f32⟩
  | 41 => ⟨S2097152, .f32⟩
  | 42 => ⟨S16384x128, .f32⟩
  | 43 => ⟨S_, .f32⟩
  | 44 => ⟨S_, .f32⟩
  | 45 => ⟨S2097152, .f32⟩
  | 46 => ⟨S16384x128, .f32⟩
  | 47 => ⟨S_, .f32⟩
  | 48 => ⟨S_, .f32⟩
  | 49 => ⟨S2097152, .f32⟩
  | 50 => ⟨S16384x128, .f32⟩
  | 51 => ⟨S_, .f32⟩
  | 52 => ⟨S_, .f32⟩
  | 53 => ⟨S2097152, .f32⟩
  | 54 => ⟨S16384x128, .f32⟩
  | 55 => ⟨S_, .f32⟩
  | 56 => ⟨S_, .f32⟩
  | 57 => ⟨S2097152, .f32⟩
  | 58 => ⟨S16384x128, .f32⟩
  | 59 => ⟨S_, .f32⟩
  | 60 => ⟨S_, .f32⟩
  | 61 => ⟨S2097152, .f32⟩
  | 62 => ⟨S16384x128, .f32⟩
  | 63 => ⟨S_, .f32⟩
  | 64 => ⟨S_, .f32⟩
  | 65 => ⟨S2097152, .f32⟩
  | 66 => ⟨S16384x128, .f32⟩
  | 67 => ⟨S_, .f32⟩
  | 68 => ⟨S_, .f32⟩
  | 69 => ⟨S2097152, .f32⟩
  | 70 => ⟨S16384x128, .f32⟩
  | 71 => ⟨S_, .f32⟩
  | 72 => ⟨S_, .f32⟩
  | 73 => ⟨S2097152, .f32⟩
  | 74 => ⟨S16384x128, .f32⟩
  | 75 => ⟨S_, .f32⟩
  | 76 => ⟨S_, .f32⟩
  | 77 => ⟨S2097152, .f32⟩
  | 78 => ⟨S16384x128, .f32⟩
  | 79 => ⟨S_, .f32⟩
  | 80 => ⟨S_, .f32⟩
  | 81 => ⟨S2097152, .f32⟩
  | 82 => ⟨S16384x128, .f32⟩
  | 83 => ⟨S_, .f32⟩
  | 84 => ⟨S_, .f32⟩
  | 85 => ⟨S2097152, .f32⟩
  | 86 => ⟨S16384x128, .f32⟩
  | 87 => ⟨S16384x128, .f32⟩
  | 88 => ⟨S16384x128, .f32⟩
  | 89 => ⟨S16384x128, .f32⟩
  | 90 => ⟨S16384x128, .f32⟩
  | 91 => ⟨S16384x128, .f32⟩
  | 92 => ⟨S16384x128, .f32⟩
  | 93 => ⟨S2097152, .f32⟩
  | 94 => ⟨S2000000, .f32⟩
  | 95 => ⟨S2097152, .f32⟩
  | 96 => ⟨S2000000, .f32⟩
  | 97 => ⟨S2097152, .f32⟩
  | 98 => ⟨S2000000, .f32⟩
  | 99 => ⟨S2097152, .f32⟩
  | 100 => ⟨S2000000, .f32⟩
  | 101 => ⟨S2097152, .f32⟩
  | 102 => ⟨S2000000, .f32⟩
  | 103 => ⟨S2097152, .f32⟩
  | 104 => ⟨S2000000, .f32⟩
  | 105 => ⟨S2000000x1, .f32⟩
  | 106 => ⟨S2000000x1, .f32⟩
  | 107 => ⟨S2000000x1, .f32⟩
  | 108 => ⟨S2000000x3, .f32⟩
  | 109 => ⟨S2000000x1, .f32⟩
  | 110 => ⟨S2000000x1, .f32⟩
  | 111 => ⟨S2000000x1, .f32⟩
  | 112 => ⟨S2000000x3, .f32⟩
  | 113 => ⟨S4000000x3, .f32⟩
  | 114 => ⟨S4000000, .i32⟩
  | 115 => ⟨S_, .f32⟩
  | 116 => ⟨S1000000x3, .f32⟩
  | 117 => ⟨S4000000x1, .i32⟩
  | 118 => ⟨S1000000x3, .f32⟩
  | 119 => ⟨S_, .f32⟩
  | 120 => ⟨S1000000x1, .f32⟩
  | 121 => ⟨S1000000x1, .f32⟩
  | 122 => ⟨S_, .f32⟩
  | 123 => ⟨S1000000x1, .f32⟩
  | 124 => ⟨S1000000x1, .f32⟩
  | 125 => ⟨S_, .f32⟩
  | 126 => ⟨S1000000x1, .f32⟩
  | 127 => ⟨S1000000x1, .f32⟩
  | _ => ⟨S1000000x3, .f32⟩

abbrev hbmTy0_2 (i : Nat) : BufTy := match i % 128 with
  | 0 => ⟨S1000000x3, .f32⟩
  | 1 => ⟨S1000000x3, .f32⟩
  | 2 => ⟨S1000000x3, .f32⟩
  | 3 => ⟨S1000000x3, .f32⟩
  | 4 => ⟨S3000000, .f32⟩
  | 5 => ⟨S3000000, .f32⟩
  | 6 => ⟨S_, .i32⟩
  | 7 => ⟨S_, .f32⟩
  | 8 => ⟨S3145728, .f32⟩
  | 9 => ⟨S_, .i32⟩
  | 10 => ⟨S_, .f32⟩
  | 11 => ⟨S3145728, .f32⟩
  | 12 => ⟨S24576x128, .f32⟩
  | 13 => ⟨S24576x128, .f32⟩
  | 14 => ⟨S1x1, .f32⟩
  | 15 => ⟨S_, .f32⟩
  | _ => ⟨S1000000x3, .f32⟩

abbrev hbmTy (i : Nat) : BufTy := match i / 128 with
  | 0 => hbmTy0_0 i
  | 1 => hbmTy0_1 i
  | 2 => hbmTy0_2 i
  | _ => ⟨S1000000x3, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S4096x128, .f32⟩
  | .local _ .vmem, ⟨37, _⟩ => ⟨S4096x128, .f32⟩
  | .local _ .vmem, ⟨38, _⟩ => ⟨S4096x128, .f32⟩
  | .local _ .vmem, ⟨39, _⟩ => ⟨S4096x128, .f32⟩
  | .local _ .vmem, ⟨40, _⟩ => ⟨S1x1, .f32⟩
  | .local _ .vmem, ⟨41, _⟩ => ⟨S1x128, .f32⟩
  | .local _ .vmem, ⟨42, _⟩ => ⟨S1x128, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_cst : Ref sig .tc := ⟨.hbm, 50, rfl⟩
abbrev main_call0_v14 : Ref sig .tc := ⟨.hbm, 51, rfl⟩
abbrev main_v19 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_cst : Ref sig .tc := ⟨.hbm, 72, rfl⟩
abbrev main_call1_v14 : Ref sig .tc := ⟨.hbm, 73, rfl⟩
abbrev main_v20 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_cst : Ref sig .tc := ⟨.hbm, 94, rfl⟩
abbrev main_call2_v14 : Ref sig .tc := ⟨.hbm, 95, rfl⟩
abbrev main_v21 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_cst : Ref sig .tc := ⟨.hbm, 116, rfl⟩
abbrev main_call3_v14 : Ref sig .tc := ⟨.hbm, 117, rfl⟩
abbrev main_v22 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_cst : Ref sig .tc := ⟨.hbm, 138, rfl⟩
abbrev main_call4_v14 : Ref sig .tc := ⟨.hbm, 139, rfl⟩
abbrev main_v23 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_cst : Ref sig .tc := ⟨.hbm, 160, rfl⟩
abbrev main_call5_v14 : Ref sig .tc := ⟨.hbm, 161, rfl⟩
abbrev main_v24 : Ref sig .tc := ⟨.hbm, 162, rfl⟩
abbrev main_v25 : Ref sig .tc := ⟨.hbm, 163, rfl⟩
abbrev main_v26 : Ref sig .tc := ⟨.hbm, 164, rfl⟩
abbrev main_v27 : Ref sig .tc := ⟨.hbm, 165, rfl⟩
abbrev main_v28 : Ref sig .tc := ⟨.hbm, 166, rfl⟩
abbrev main_cst : Ref sig .tc := ⟨.hbm, 167, rfl⟩
abbrev main_call6_v0 : Ref sig .tc := ⟨.hbm, 168, rfl⟩
abbrev main_v29 : Ref sig .tc := ⟨.hbm, 169, rfl⟩
abbrev main_v30 : Ref sig .tc := ⟨.hbm, 170, rfl⟩
abbrev main_cst_0 : Ref sig .tc := ⟨.hbm, 171, rfl⟩
abbrev main_call7_v0 : Ref sig .tc := ⟨.hbm, 172, rfl⟩
abbrev main_v31 : Ref sig .tc := ⟨.hbm, 173, rfl⟩
abbrev main_v32 : Ref sig .tc := ⟨.hbm, 174, rfl⟩
abbrev main_cst_1 : Ref sig .tc := ⟨.hbm, 175, rfl⟩
abbrev main_call8_v0 : Ref sig .tc := ⟨.hbm, 176, rfl⟩
abbrev main_v33 : Ref sig .tc := ⟨.hbm, 177, rfl⟩
abbrev main_v34 : Ref sig .tc := ⟨.hbm, 178, rfl⟩
abbrev main_cst_2 : Ref sig .tc := ⟨.hbm, 179, rfl⟩
abbrev main_call9_v0 : Ref sig .tc := ⟨.hbm, 180, rfl⟩
abbrev main_v35 : Ref sig .tc := ⟨.hbm, 181, rfl⟩
abbrev main_v36 : Ref sig .tc := ⟨.hbm, 182, rfl⟩
abbrev main_cst_3 : Ref sig .tc := ⟨.hbm, 183, rfl⟩
abbrev main_call10_v0 : Ref sig .tc := ⟨.hbm, 184, rfl⟩
abbrev main_v37 : Ref sig .tc := ⟨.hbm, 185, rfl⟩
abbrev main_v38 : Ref sig .tc := ⟨.hbm, 186, rfl⟩
abbrev main_cst_4 : Ref sig .tc := ⟨.hbm, 187, rfl⟩
abbrev main_call11_v0 : Ref sig .tc := ⟨.hbm, 188, rfl⟩
abbrev main_v39 : Ref sig .tc := ⟨.hbm, 189, rfl⟩
abbrev main_v40 : Ref sig .tc := ⟨.hbm, 190, rfl⟩
abbrev main_cst_5 : Ref sig .tc := ⟨.hbm, 191, rfl⟩
abbrev main_call12_v0 : Ref sig .tc := ⟨.hbm, 192, rfl⟩
abbrev main_v41 : Ref sig .tc := ⟨.hbm, 193, rfl⟩
abbrev main_v42 : Ref sig .tc := ⟨.hbm, 194, rfl⟩
abbrev main_cst_6 : Ref sig .tc := ⟨.hbm, 195, rfl⟩
abbrev main_call13_v0 : Ref sig .tc := ⟨.hbm, 196, rfl⟩
abbrev main_v43 : Ref sig .tc := ⟨.hbm, 197, rfl⟩
abbrev main_v44 : Ref sig .tc := ⟨.hbm, 198, rfl⟩
abbrev main_cst_7 : Ref sig .tc := ⟨.hbm, 199, rfl⟩
abbrev main_call14_v0 : Ref sig .tc := ⟨.hbm, 200, rfl⟩
abbrev main_v45 : Ref sig .tc := ⟨.hbm, 201, rfl⟩
abbrev main_v46 : Ref sig .tc := ⟨.hbm, 202, rfl⟩
abbrev main_cst_8 : Ref sig .tc := ⟨.hbm, 203, rfl⟩
abbrev main_call15_v0 : Ref sig .tc := ⟨.hbm, 204, rfl⟩
abbrev main_v47 : Ref sig .tc := ⟨.hbm, 205, rfl⟩
abbrev main_v48 : Ref sig .tc := ⟨.hbm, 206, rfl⟩
abbrev main_cst_9 : Ref sig .tc := ⟨.hbm, 207, rfl⟩
abbrev main_call16_v0 : Ref sig .tc := ⟨.hbm, 208, rfl⟩
abbrev main_v49 : Ref sig .tc := ⟨.hbm, 209, rfl⟩
abbrev main_v50 : Ref sig .tc := ⟨.hbm, 210, rfl⟩
abbrev main_cst_10 : Ref sig .tc := ⟨.hbm, 211, rfl⟩
abbrev main_call17_v0 : Ref sig .tc := ⟨.hbm, 212, rfl⟩
abbrev main_v51 : Ref sig .tc := ⟨.hbm, 213, rfl⟩
abbrev main_v52 : Ref sig .tc := ⟨.hbm, 214, rfl⟩
abbrev main_v53_0 : Ref sig .tc := ⟨.hbm, 215, rfl⟩
abbrev main_v53_1 : Ref sig .tc := ⟨.hbm, 216, rfl⟩
abbrev main_v53_2 : Ref sig .tc := ⟨.hbm, 217, rfl⟩
abbrev main_v53_3 : Ref sig .tc := ⟨.hbm, 218, rfl⟩
abbrev main_v53_4 : Ref sig .tc := ⟨.hbm, 219, rfl⟩
abbrev main_v53_5 : Ref sig .tc := ⟨.hbm, 220, rfl⟩
abbrev main_v54 : Ref sig .tc := ⟨.hbm, 221, rfl⟩
abbrev main_v55 : Ref sig .tc := ⟨.hbm, 222, rfl⟩
abbrev main_v56 : Ref sig .tc := ⟨.hbm, 223, rfl⟩
abbrev main_v57 : Ref sig .tc := ⟨.hbm, 224, rfl⟩
abbrev main_v58 : Ref sig .tc := ⟨.hbm, 225, rfl⟩
abbrev main_v59 : Ref sig .tc := ⟨.hbm, 226, rfl⟩
abbrev main_v60 : Ref sig .tc := ⟨.hbm, 227, rfl⟩
abbrev main_v61 : Ref sig .tc := ⟨.hbm, 228, rfl⟩
abbrev main_v62 : Ref sig .tc := ⟨.hbm, 229, rfl⟩
abbrev main_v63 : Ref sig .tc := ⟨.hbm, 230, rfl⟩
abbrev main_v64 : Ref sig .tc := ⟨.hbm, 231, rfl⟩
abbrev main_v65 : Ref sig .tc := ⟨.hbm, 232, rfl⟩
abbrev main_v66 : Ref sig .tc := ⟨.hbm, 233, rfl⟩
abbrev main_v67 : Ref sig .tc := ⟨.hbm, 234, rfl⟩
abbrev main_v68 : Ref sig .tc := ⟨.hbm, 235, rfl⟩
abbrev main_v69 : Ref sig .tc := ⟨.hbm, 236, rfl⟩
abbrev main_v70 : Ref sig .tc := ⟨.hbm, 237, rfl⟩
abbrev main_v71 : Ref sig .tc := ⟨.hbm, 238, rfl⟩
abbrev main_v72 : Ref sig .tc := ⟨.hbm, 239, rfl⟩
abbrev main_v73 : Ref sig .tc := ⟨.hbm, 240, rfl⟩
abbrev main_v74 : Ref sig .tc := ⟨.hbm, 241, rfl⟩
abbrev main_v75 : Ref sig .tc := ⟨.hbm, 242, rfl⟩
abbrev main_cst_11 : Ref sig .tc := ⟨.hbm, 243, rfl⟩
abbrev main_v76 : Ref sig .tc := ⟨.hbm, 244, rfl⟩
abbrev main_v77 : Ref sig .tc := ⟨.hbm, 245, rfl⟩
abbrev main_v78 : Ref sig .tc := ⟨.hbm, 246, rfl⟩
abbrev main_cst_12 : Ref sig .tc := ⟨.hbm, 247, rfl⟩
abbrev main_v79 : Ref sig .tc := ⟨.hbm, 248, rfl⟩
abbrev main_v80 : Ref sig .tc := ⟨.hbm, 249, rfl⟩
abbrev main_cst_13 : Ref sig .tc := ⟨.hbm, 250, rfl⟩
abbrev main_v81 : Ref sig .tc := ⟨.hbm, 251, rfl⟩
abbrev main_v82 : Ref sig .tc := ⟨.hbm, 252, rfl⟩
abbrev main_cst_14 : Ref sig .tc := ⟨.hbm, 253, rfl⟩
abbrev main_v83 : Ref sig .tc := ⟨.hbm, 254, rfl⟩
abbrev main_v84 : Ref sig .tc := ⟨.hbm, 255, rfl⟩
abbrev main_v85 : Ref sig .tc := ⟨.hbm, 256, rfl⟩
abbrev main_v86 : Ref sig .tc := ⟨.hbm, 257, rfl⟩
abbrev main_v87 : Ref sig .tc := ⟨.hbm, 258, rfl⟩
abbrev main_v88 : Ref sig .tc := ⟨.hbm, 259, rfl⟩
abbrev main_v89 : Ref sig .tc := ⟨.hbm, 260, rfl⟩
abbrev main_v90 : Ref sig .tc := ⟨.hbm, 261, rfl⟩
abbrev main_c : Ref sig .tc := ⟨.hbm, 262, rfl⟩
abbrev main_call18_v0 : Ref sig .tc := ⟨.hbm, 263, rfl⟩
abbrev main_v91 : Ref sig .tc := ⟨.hbm, 264, rfl⟩
abbrev main_c_15 : Ref sig .tc := ⟨.hbm, 265, rfl⟩
abbrev main_call19_v0 : Ref sig .tc := ⟨.hbm, 266, rfl⟩
abbrev main_v92 : Ref sig .tc := ⟨.hbm, 267, rfl⟩
abbrev main_v93 : Ref sig .tc := ⟨.hbm, 268, rfl⟩
abbrev main_v94 : Ref sig .tc := ⟨.hbm, 269, rfl⟩
abbrev main_v95 : Ref sig .tc := ⟨.hbm, 270, rfl⟩
abbrev main_v96 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc1_stg0_0 : Ref sig .tc := ⟨.vmem, 36, rfl⟩
abbrev cc1_stg0_1 : Ref sig .tc := ⟨.vmem, 37, rfl⟩
abbrev cc1_stg1_0 : Ref sig .tc := ⟨.vmem, 38, rfl⟩
abbrev cc1_stg1_1 : Ref sig .tc := ⟨.vmem, 39, rfl⟩
abbrev cc1_stg2_0 : Ref sig .tc := ⟨.vmem, 40, rfl⟩
abbrev cc1_scratch0 : Ref sig .tc := ⟨.vmem, 41, rfl⟩
abbrev cc1_scratch1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc1_sem0_0 : DmaSem sig := 36
abbrev cc1_sem0_1 : DmaSem sig := 37
abbrev cc1_sem1_0 : DmaSem sig := 38
abbrev cc1_sem1_1 : DmaSem sig := 39
abbrev cc1_sem2_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![6], ![false]⟩

def k1_cond2 (i : grid1.Coords) : BitVec 1 :=
  let arg0 : BitVec 32 := BitVec.ofNat 32 (i 0).val
  let c5_i32 : BitVec 32 := 5#32
  let v23 : BitVec 1 := Scalar.cmpi .eq arg0 c5_i32
  let v24 : BitVec 32 := Scalar.extui v23
  let c0_i32_13 : BitVec 32 := 0#32
  let v25 : BitVec 1 := Scalar.cmpi .ne v24 c0_i32_13
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S1000000x3_S1000000x1_0_0 : S1000000x3.Slices ![0, 0] S1000000x1
  shapeCasts_S1000000x1_S1000000 : S1000000x1.ShapeCasts S1000000
  shapeCasts_S1_S_ : S1.ShapeCasts S_
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  slices_S2000000x3_S2000000x1_0_0 : S2000000x3.Slices ![0, 0] S2000000x1
  slices_S2000000x3_S2000000x1_0_2 : S2000000x3.Slices ![0, 2] S2000000x1
  pads_S2000000_S2097152_0971520 : S2000000.Pads (![0] : Fin 1 → Nat) ![97152] ![0] S2097152
  shapeCasts_S2097152_S16384x128 : S2097152.ShapeCasts S16384x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S16384x128_S2097152 : S16384x128.ShapeCasts S2097152
  slices_S2097152_S2000000_0 : S2097152.Slices ![0] S2000000
  concatenates_S2000000x1_S2000000x1_S2000000x1_S2000000x3_d1 : Shape.Concatenates [S2000000x1, S2000000x1, S2000000x1] S2000000x3 1
  concatenates_S2000000x3_S2000000x3_S4000000x3_d0 : Shape.Concatenates [S2000000x3, S2000000x3] S4000000x3 0
  concatenates_S2000000_S2000000_S4000000_d0 : Shape.Concatenates [S2000000, S2000000] S4000000 0
  bcast_S_S1000000x3 : S_.BroadcastsInDim S1000000x3 (![] : Fin 0 → Fin S1000000x3.rank)
  bcast_S4000000_S4000000x1_0 : S4000000.BroadcastsInDim S4000000x1 (![0] : Fin 1 → Fin S4000000x1.rank)
  bcast_S_S1000000x1 : S_.BroadcastsInDim S1000000x1 (![] : Fin 0 → Fin S1000000x1.rank)
  concatenates_S1000000x1_S1000000x1_S1000000x1_S1000000x3_d1 : Shape.Concatenates [S1000000x1, S1000000x1, S1000000x1] S1000000x3 1
  shapeCasts_S1000000x3_S3000000 : S1000000x3.ShapeCasts S3000000
  pads_S3000000_S3145728_01457280 : S3000000.Pads (![0] : Fin 1 → Nat) ![145728] ![0] S3145728
  shapeCasts_S3145728_S24576x128 : S3145728.ShapeCasts S24576x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  shapeCasts_S128_S1x128 : S128.ShapeCasts S1x128
  reduces_S1x128_S1 : S1x128.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S1000000_S2000000x1_S2000000_n_0_n_n_0_1_1_wf : GatherDims.WF S1000000 S2000000x1 S2000000 [] [0] [] [0] [] 1 ![1]
  scatter_S1000000x3_S4000000x1_S4000000x3_1_0_0_1_wf : ScatterDims.WF S1000000x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S16384x128.size a
  hwx0_5 : ∀ i : grid0.Coords, EltTy.bits .f32 = 32 ∨ (Rect.block (s := S16384x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S16384x128.size a
  hwx0_6 : ∀ i : grid0.Coords, EltTy.bits .f32 = 32 ∨ (Rect.block (s := S16384x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S16384x128.size a
  hwx0_7 : ∀ i : grid0.Coords, EltTy.bits .f32 = 32 ∨ (Rect.block (s := S16384x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S16384x128.size a
  hwx0_8 : ∀ i : grid0.Coords, EltTy.bits .f32 = 32 ∨ (Rect.block (s := S16384x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S16384x128.size a
  hwx0_9 : ∀ i : grid0.Coords, EltTy.bits .f32 = 32 ∨ (Rect.block (s := S16384x128) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S16384x128.size a
  hwx0_10 : ∀ i : grid0.Coords, EltTy.bits .f32 = 32 ∨ (Rect.block (s := S16384x128) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S16384x128.size a
  hwx0_11 : ∀ i : grid0.Coords, EltTy.bits .f32 = 32 ∨ (Rect.block (s := S16384x128) S1024x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S16384x128.size a
  hwx0_12 : ∀ i : grid0.Coords, EltTy.bits .f32 = 32 ∨ (Rect.block (s := S16384x128) S1024x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S16384x128.size a
  hwx0_13 : ∀ i : grid0.Coords, EltTy.bits .f32 = 32 ∨ (Rect.block (s := S16384x128) S1024x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x128.size a ≤ S16384x128.size a
  hwx0_14 : ∀ i : grid0.Coords, EltTy.bits .f32 = 32 ∨ (Rect.block (s := S16384x128) S1024x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S16384x128.size a
  hwx0_15 : ∀ i : grid0.Coords, EltTy.bits .f32 = 32 ∨ (Rect.block (s := S16384x128) S1024x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x128.size a ≤ S16384x128.size a
  hwx0_16 : ∀ i : grid0.Coords, EltTy.bits .f32 = 32 ∨ (Rect.block (s := S16384x128) S1024x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x128.size a ≤ S16384x128.size a
  hwx0_17 : ∀ i : grid0.Coords, EltTy.bits .f32 = 32 ∨ (Rect.block (s := S16384x128) S1024x128.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S24576x128.size a
  hwx1_0 : ∀ i : grid1.Coords, EltTy.bits .f32 = 32 ∨ (Rect.block (s := S24576x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S24576x128.size a
  hwx1_1 : ∀ i : grid1.Coords, EltTy.bits .f32 = 32 ∨ (Rect.block (s := S24576x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def gather_S1000000_S2000000x1_S2000000_n_0_n_n_0_1_1 : GatherDims S1000000 S2000000x1 S2000000 where
  offsetDims := []
  collapsedSliceDims := [0]
  operandBatchingDims := []
  startIndicesBatchingDims := []
  startIndexMap := [0]
  indexVectorDim := 1
  sliceSizes := ![1]
  wf := gather_S1000000_S2000000x1_S2000000_n_0_n_n_0_1_1_wf
def scatter_S1000000x3_S4000000x1_S4000000x3_1_0_0_1 : ScatterDims S1000000x3 S4000000x1 S4000000x3 where
  updateWindowDims := [1]
  insertedWindowDims := [0]
  scatterDimsToOperandDims := [0]
  indexVectorDim := 1
  wf := scatter_S1000000x3_S4000000x1_S4000000x3_1_0_0_1_wf

abbrev win0_0 : Pipeline.Window sig grid0 :=
  Pipeline.Window.ofSpec (Memref.whole main_v30) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v46) S1024x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v48) S1024x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v50) S1024x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v52) S1024x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v53_0) S1024x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v53_1) S1024x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v53_2) S1024x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v53_3) S1024x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v53_4) S1024x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v53_5) S1024x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v93) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v94) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v95) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1000000x3 : Shape := ⟨2, ![1000000, 3]⟩
abbrev S1 : Shape := ⟨1, ![1]⟩
abbrev S2000000 : Shape := ⟨1, ![2000000]⟩
abbrev S2000000x3 : Shape := ⟨2, ![2000000, 3]⟩
abbrev S1000000x1 : Shape := ⟨2, ![1000000, 1]⟩
abbrev S2000000x2 : Shape := ⟨2, ![2000000, 2]⟩
abbrev S3 : Shape := ⟨1, ![3]⟩
abbrev S1x3 : Shape := ⟨2, ![1, 3]⟩
abbrev S2000000x1 : Shape := ⟨2, ![2000000, 1]⟩
abbrev S_ : Shape := ⟨0, ![]⟩
abbrev S4000000x3 : Shape := ⟨2, ![4000000, 3]⟩
abbrev S4000000 : Shape := ⟨1, ![4000000]⟩
abbrev S4000000x1 : Shape := ⟨2, ![4000000, 1]⟩

abbrev nBuf : Space → Nat
  | .hbm => 183
  | .vmem => 0
  | .smem => 0
  | _ => 0

abbrev hbmTy0_0 (i : Nat) : BufTy := match i % 128 with
  | 0 => ⟨S1000000x3, .f32⟩
  | 1 => ⟨S1, .f32⟩
  | 2 => ⟨S1, .f32⟩
  | 3 => ⟨S2000000, .f32⟩
  | 4 => ⟨S2000000, .f32⟩
  | 5 => ⟨S2000000, .f32⟩
  | 6 => ⟨S2000000, .f32⟩
  | 7 => ⟨S2000000x3, .f32⟩
  | 8 => ⟨S1000000x3, .f32⟩
  | 9 => ⟨S1000000x1, .f32⟩
  | 10 => ⟨S1000000x1, .f32⟩
  | 11 => ⟨S2000000x2, .i32⟩
  | 12 => ⟨S3, .f32⟩
  | 13 => ⟨S1x3, .f32⟩
  | 14 => ⟨S1000000x3, .f32⟩
  | 15 => ⟨S1000000x3, .f32⟩
  | 16 => ⟨S2000000x1, .i32⟩
  | 17 => ⟨S2000000, .i32⟩
  | 18 => ⟨S2000000x1, .i32⟩
  | 19 => ⟨S2000000, .i32⟩
  | 20 => ⟨S2000000x1, .f32⟩
  | 21 => ⟨S2000000, .f32⟩
  | 22 => ⟨S2000000x1, .f32⟩
  | 23 => ⟨S2000000, .f32⟩
  | 24 => ⟨S2000000, .f32⟩
  | 25 => ⟨S2000000, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x3, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000x3, .f32⟩
  | 44 => ⟨S2000000x1, .f32⟩
  | 45 => ⟨S2000000, .f32⟩
  | 46 => ⟨S2000000, .f32⟩
  | 47 => ⟨S2000000x1, .f32⟩
  | 48 => ⟨S2000000, .f32⟩
  | 49 => ⟨S2000000, .f32⟩
  | 50 => ⟨S2000000, .f32⟩
  | 51 => ⟨S2000000, .f32⟩
  | 52 => ⟨S2000000x1, .f32⟩
  | 53 => ⟨S2000000, .f32⟩
  | 54 => ⟨S2000000, .f32⟩
  | 55 => ⟨S2000000x1, .f32⟩
  | 56 => ⟨S2000000, .f32⟩
  | 57 => ⟨S2000000, .f32⟩
  | 58 => ⟨S2000000, .f32⟩
  | 59 => ⟨S2000000x1, .f32⟩
  | 60 => ⟨S2000000, .f32⟩
  | 61 => ⟨S2000000, .f32⟩
  | 62 => ⟨S2000000x1, .f32⟩
  | 63 => ⟨S2000000, .f32⟩
  | 64 => ⟨S2000000, .f32⟩
  | 65 => ⟨S2000000x1, .f32⟩
  | 66 => ⟨S2000000, .f32⟩
  | 67 => ⟨S2000000, .f32⟩
  | 68 => ⟨S2000000, .f32⟩
  | 69 => ⟨S2000000, .f32⟩
  | 70 => ⟨S2000000x1, .f32⟩
  | 71 => ⟨S2000000, .f32⟩
  | 72 => ⟨S2000000, .f32⟩
  | 73 => ⟨S2000000x1, .f32⟩
  | 74 => ⟨S2000000, .f32⟩
  | 75 => ⟨S2000000, .f32⟩
  | 76 => ⟨S2000000, .f32⟩
  | 77 => ⟨S2000000x1, .f32⟩
  | 78 => ⟨S2000000, .f32⟩
  | 79 => ⟨S2000000, .f32⟩
  | 80 => ⟨S2000000, .f32⟩
  | 81 => ⟨S_, .f32⟩
  | 82 => ⟨S2000000, .f32⟩
  | 83 => ⟨S2000000, .f32⟩
  | 84 => ⟨S2000000, .f32⟩
  | 85 => ⟨S2000000, .f32⟩
  | 86 => ⟨S2000000, .f32⟩
  | 87 => ⟨S2000000, .f32⟩
  | 88 => ⟨S2000000, .f32⟩
  | 89 => ⟨S2000000, .f32⟩
  | 90 => ⟨S2000000, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S2000000, .f32⟩
  | 101 => ⟨S2000000, .f32⟩
  | 102 => ⟨S2000000, .f32⟩
  | 103 => ⟨S_, .f32⟩
  | 104 => ⟨S2000000, .f32⟩
  | 105 => ⟨S2000000, .f32⟩
  | 106 => ⟨S2000000, .f32⟩
  | 107 => ⟨S_, .f32⟩
  | 108 => ⟨S2000000, .f32⟩
  | 109 => ⟨S2000000, .f32⟩
  | 110 => ⟨S2000000, .f32⟩
  | 111 => ⟨S2000000, .f32⟩
  | 112 => ⟨S_, .f32⟩
  | 113 => ⟨S2000000, .f32⟩
  | 114 => ⟨S2000000, .f32⟩
  | 115 => ⟨S2000000, .f32⟩
  | 116 => ⟨S2000000, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S2000000, .f32⟩
  | 123 => ⟨S_, .f32⟩
  | 124 => ⟨S2000000, .f32⟩
  | 125 => ⟨S2000000, .f32⟩
  | 126 => ⟨S2000000, .f32⟩
  | 127 => ⟨S2000000, .f32⟩
  | _ => ⟨S1000000x3, .f32⟩

abbrev hbmTy0_1 (i : Nat) : BufTy := match i % 128 with
  | 0 => ⟨S_, .f32⟩
  | 1 => ⟨S2000000, .f32⟩
  | 2 => ⟨S2000000, .f32⟩
  | 3 => ⟨S2000000, .f32⟩
  | 4 => ⟨S2000000, .f32⟩
  | 5 => ⟨S2000000, .f32⟩
  | 6 => ⟨S2000000, .f32⟩
  | 7 => ⟨S2000000, .f32⟩
  | 8 => ⟨S2000000, .f32⟩
  | 9 => ⟨S2000000, .f32⟩
  | 10 => ⟨S2000000, .f32⟩
  | 11 => ⟨S2000000, .f32⟩
  | 12 => ⟨S2000000x1, .f32⟩
  | 13 => ⟨S2000000x1, .f32⟩
  | 14 => ⟨S2000000x1, .f32⟩
  | 15 => ⟨S2000000x3, .f32⟩
  | 16 => ⟨S2000000, .f32⟩
  | 17 => ⟨S2000000, .f32⟩
  | 18 => ⟨S2000000, .f32⟩
  | 19 => ⟨S2000000, .f32⟩
  | 20 => ⟨S2000000, .f32⟩
  | 21 => ⟨S2000000, .f32⟩
  | 22 => ⟨S2000000, .f32⟩
  | 23 => ⟨S2000000x1, .f32⟩
  | 24 => ⟨S2000000x1, .f32⟩
  | 25 => ⟨S2000000x1, .f32⟩
  | 26 => ⟨S2000000x3, .f32⟩
  | 27 => ⟨S4000000x3, .f32⟩
  | 28 => ⟨S4000000, .i32⟩
  | 29 => ⟨S_, .f32⟩
  | 30 => ⟨S1000000x3, .f32⟩
  | 31 => ⟨S4000000x1, .i32⟩
  | 32 => ⟨S1000000x3, .f32⟩
  | 33 => ⟨S1000000x3, .f32⟩
  | 34 => ⟨S_, .f32⟩
  | 35 => ⟨S1000000x1, .f32⟩
  | 36 => ⟨S1000000x1, .f32⟩
  | 37 => ⟨S_, .f32⟩
  | 38 => ⟨S1000000x1, .f32⟩
  | 39 => ⟨S1000000x1, .f32⟩
  | 40 => ⟨S_, .f32⟩
  | 41 => ⟨S1000000x1, .f32⟩
  | 42 => ⟨S1000000x1, .f32⟩
  | 43 => ⟨S1000000x3, .f32⟩
  | 44 => ⟨S1000000x3, .f32⟩
  | 45 => ⟨S1000000x3, .f32⟩
  | 46 => ⟨S1000000x3, .f32⟩
  | 47 => ⟨S_, .f32⟩
  | 48 => ⟨S_, .f32⟩
  | 49 => ⟨S_, .f32⟩
  | 50 => ⟨S_, .f32⟩
  | 51 => ⟨S1000000x3, .f32⟩
  | 52 => ⟨S_, .f32⟩
  | 53 => ⟨S_, .f32⟩
  | 54 => ⟨S_, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_3 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_4 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_5 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_6 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_7 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_8 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_9 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_10 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_11 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_12 : Ref sig .tc := ⟨.hbm, 162, rfl⟩
abbrev main_v136 : Ref sig .tc := ⟨.hbm, 163, rfl⟩
abbrev main_v137 : Ref sig .tc := ⟨.hbm, 164, rfl⟩
abbrev main_cst_13 : Ref sig .tc := ⟨.hbm, 165, rfl⟩
abbrev main_v138 : Ref sig .tc := ⟨.hbm, 166, rfl⟩
abbrev main_v139 : Ref sig .tc := ⟨.hbm, 167, rfl⟩
abbrev main_cst_14 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_15 : Ref sig .tc := ⟨.hbm, 175, rfl⟩
abbrev main_v146 : Ref sig .tc := ⟨.hbm, 176, rfl⟩
abbrev main_cst_16 : Ref sig .tc := ⟨.hbm, 177, rfl⟩
abbrev main_v147 : Ref sig .tc := ⟨.hbm, 178, rfl⟩
abbrev main_v148 : Ref sig .tc := ⟨.hbm, 179, rfl⟩
abbrev main_cst_17 : Ref sig .tc := ⟨.hbm, 180, rfl⟩
abbrev main_v149 : Ref sig .tc := ⟨.hbm, 181, rfl⟩
abbrev main_v150 : Ref sig .tc := ⟨.hbm, 182, rfl⟩

abbrev nD : Nat := 1
abbrev τ : Topo := Topo.v7x

variable {F : FTy → Type} [FloatOps F]

class Facts₀ : Prop where
  concatenates_S1_S1_S1_S3_d0 : Shape.Concatenates [S1, S1, S1] S3 0
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  slices_S2000000x3_S2000000x1_0_0 : S2000000x3.Slices ![0, 0] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x3_S2000000x1_0_1 : S2000000x3.Slices ![0, 1] S2000000x1
  concatenates_S2000000x1_S2000000x1_S2000000x1_S2000000x3_d1 : Shape.Concatenates [S2000000x1, S2000000x1, S2000000x1] S2000000x3 1
  concatenates_S2000000x3_S2000000x3_S4000000x3_d0 : Shape.Concatenates [S2000000x3, S2000000x3] S4000000x3 0
  concatenates_S2000000_S2000000_S4000000_d0 : Shape.Concatenates [S2000000, S2000000] S4000000 0
  bcast_S_S1000000x3 : S_.BroadcastsInDim S1000000x3 (![] : Fin 0 → Fin S1000000x3.rank)
  bcast_S4000000_S4000000x1_0 : S4000000.BroadcastsInDim S4000000x1 (![0] : Fin 1 → Fin S4000000x1.rank)
  bcast_S_S1000000x1 : S_.BroadcastsInDim S1000000x1 (![] : Fin 0 → Fin S1000000x1.rank)
  concatenates_S1000000x1_S1000000x1_S1000000x1_S1000000x3_d1 : Shape.Concatenates [S1000000x1, S1000000x1, S1000000x1] S1000000x3 1
  reducesTo_S1000000x3_S_d0_1 : S1000000x3.ReducesTo [0, 1] S_
  h_S_ : 0 < S_.numel
  gather_S1000000x3_S2000000x1_S2000000x3_1_0_n_n_0_1_13_wf : GatherDims.WF S1000000x3 S2000000x1 S2000000x3 [1] [0] [] [0] [] 1 ![1, 3]
  scatter_S1000000x3_S4000000x1_S4000000x3_1_0_0_1_wf : ScatterDims.WF S1000000x3 S4000000x1 S4000000x3 [1] [0] [0] 1

variable [Facts₀]

def gather_S1000000x3_S2000000x1_S2000000x3_1_0_n_n_0_1_13 : GatherDims S1000000x3 S2000000x1 S2000000x3 where
  offsetDims := [1]
  collapsedSliceDims := [0]
  operandBatchingDims := []
  startIndicesBatchingDims := []
  startIndexMap := [0]
  indexVectorDim := 1
  sliceSizes := ![1, 3]
  wf := gather_S1000000x3_S2000000x1_S2000000x3_1_0_n_n_0_1_13_wf
def scatter_S1000000x3_S4000000x1_S4000000x3_1_0_0_1 : ScatterDims S1000000x3 S4000000x1 S4000000x3 where
  updateWindowDims := [1]
  insertedWindowDims := [0]
  scatterDimsToOperandDims := [0]
  indexVectorDim := 1
  wf := scatter_S1000000x3_S4000000x1_S4000000x3_1_0_0_1_wf

class Facts : Prop extends Facts₀ where

variable [Facts]
-- ==== Proof.Bits.R0Body.lean ====
import proofs.«429766_j12146167513806_2_alg».proof.Proof.Gen.Kernel.Launch
import proofs.«429766_j12146167513806_2_alg».proof.Proof.Gen.Kernel.Skeleton
import proofs.«429766_j12146167513806_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) {w : Fin cfg0.W} (hA : dat.A w = V c (Pipeline.arrRef spec0 w))
    {t : Fin cfg0.N} (hf : (cfg0.win w).fetch t = true) (d) :
    dat.before w t d = (cfg0.win w).fill (cfg0.grid.coords t) d (iblk0 V c w t) := by
  rw [dat.before_fetched w t hf d]; unfold Dat.fetched Dat.blockOf iblk0; rw [hA]

abbrev r0_0 : Rect S1024x128 := Rect.unit (s := S1024x128) ![0, 0] S1024x128.size inb_S1024x128_S1024x128_0_0

def out0_12 (x0 x1 x2 x3 x4 x5 x6 x7 x8 x9 x10 x11 : Vec F S1024x128 .f32) : Vec F S1024x128 .f32 :=
  View.canon [⟨r0_0, k0_pay22 (k0_pay1 (View.ld x6 r0_0)) (k0_pay2 (View.ld x7 r0_0)) (k0_pay17 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0))⟩]
def out0_13 (x0 x1 x2 x3 x4 x5 x6 x7 x8 x9 x10 x11 : Vec F S1024x128 .f32) : Vec F S1024x128 .f32 :=
  View.canon [⟨r0_0, k0_pay23 (k0_pay1 (View.ld x6 r0_0)) (k0_pay2 (View.ld x7 r0_0)) (k0_pay17 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0))⟩]
def out0_14 (x0 x1 x2 x3 x4 x5 x6 x7 x8 x9 x10 x11 : Vec F S1024x128 .f32) : Vec F S1024x128 .f32 :=
  View.canon [⟨r0_0, k0_pay24 (k0_pay19 (k0_pay1 (View.ld x6 r0_0)) (k0_pay2 (View.ld x7 r0_0)) (k0_pay6 (View.ld x8 r0_0) (View.ld x9 r0_0) (View.ld x11 r0_0)) (k0_pay7 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0))⟩]
def out0_15 (x0 x1 x2 x3 x4 x5 x6 x7 x8 x9 x10 x11 : Vec F S1024x128 .f32) : Vec F S1024x128 .f32 :=
  View.canon [⟨r0_0, k0_pay25 (k0_pay1 (View.ld x6 r0_0)) (k0_pay2 (View.ld x7 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0)) (k0_pay20 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (Scalar.ofBits .f32 0x00000000#32)⟩]
def out0_16 (x0 x1 x2 x3 x4 x5 x6 x7 x8 x9 x10 x11 : Vec F S1024x128 .f32) : Vec F S1024x128 .f32 :=
  View.canon [⟨r0_0, k0_pay26 (k0_pay1 (View.ld x6 r0_0)) (k0_pay2 (View.ld x7 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0)) (k0_pay20 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (Scalar.ofBits .f32 0x00000000#32)⟩]
def out0_17 (x0 x1 x2 x3 x4 x5 x6 x7 x8 x9 x10 x11 : Vec F S1024x128 .f32) : Vec F S1024x128 .f32 :=
  View.canon [⟨r0_0, k0_pay27 (k0_pay6 (View.ld x8 r0_0) (View.ld x9 r0_0) (View.ld x11 r0_0)) (k0_pay7 (View.ld x8 r0_0) (View.ld x9 r0_0) (View.ld x11 r0_0)) (k0_pay14 (k0_pay11 (View.ld x2 r0_0))) (k0_pay15 (View.ld x5 r0_0)) (k0_pay16 (k0_pay1 (View.ld x6 r0_0)) (k0_pay2 (View.ld x7 r0_0)) (k0_pay9 (View.ld x0 r0_0)) (k0_pay10 (View.ld x1 r0_0)) (k0_pay12 (View.ld x3 r0_0)) (View.ld x4 r0_0))⟩]

theorem cover0 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

set_option maxHeartbeats 1000000 in
theorem sound_kernel0 (c : Dev nD) (E : Set ℕ) {i : grid0.Coords} {a0 a1 a2 a3 a4 a5 a6 a7 a8 a9 a10 a11 a12 a13 a14 a15 a16 a17 : Memref sig .tc .vmem S1024x128 .f32}
    {h0 : a0.IsWhole} {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {h16 : a16.IsWhole} {h17 : a17.IsWhole}
    {x0 x1 x2 x3 x4 x5 x6 x7 x8 x9 x10 x11 y12 y13 y14 y15 y16 y17 : Vec F S1024x128 .f32} {K : PUnit → sProp 𝕄} :
    ⊢ iprop(owns c a0 fullShare x0 -∗ owns c a1 fullShare x1 -∗ owns c a2 fullShare x2 -∗ owns c a3 fullShare x3 -∗ owns c a4 fullShare x4 -∗ owns c a5 fullShare x5 -∗ owns c a6 fullShare x6 -∗ owns c a7 fullShare x7 -∗ owns c a8 fullShare x8 -∗ owns c a9 fullShare x9 -∗ owns c a10 fullShare x10 -∗ owns c a11 fullShare x11 -∗ owns c a12 fullShare y12 -∗ owns c a13 fullShare y13 -∗ owns c a14 fullShare y14 -∗ owns c a15 fullShare y15 -∗ owns c a16 fullShare y16 -∗ owns c a17 fullShare y17
      -∗ (owns c a0 fullShare x0 -∗ owns c a1 fullShare x1 -∗ owns c a2 fullShare x2 -∗ owns c a3 fullShare x3 -∗ owns c a4 fullShare x4 -∗ owns c a5 fullShare x5 -∗ owns c a6 fullShare x6 -∗ owns c a7 fullShare x7 -∗ owns c a8 fullShare x8 -∗ owns c a9 fullShare x9 -∗ owns c a10 fullShare x10 -∗ owns c a11 fullShare x11 -∗ owns c a12 fullShare (out0_12 x0 x1 x2 x3 x4 x5 x6 x7 x8 x9 x10 x11) -∗ owns c a13 fullShare (out0_13 x0 x1 x2 x3 x4 x5 x6 x7 x8 x9 x10 x11) -∗ owns c a14 fullShare (out0_14 x0 x1 x2 x3 x4 x5 x6 x7 x8 x9 x10 x11) -∗ owns c a15 fullShare (out0_15 x0 x1 x2 x3 x4 x5 x6 x7 x8 x9 x10 x11) -∗ owns c a16 fullShare (out0_16 x0 x1 x2 x3 x4 x5 x6 x7 x8 x9 x10 x11) -∗ owns c a17 fullShare (out0_17 x0 x1 x2 x3 x4 x5 x6 x7 x8 x9 x10 x11) -∗ K ⟨⟩)
      -∗ wp frame (wpE (defs₀ (F := F)) Variants.none c none) E (cc0__elem_kernel i a0 h0 a1 h1 a2 h2 a3 h3 a4 h4 a5 h5 a6 h6 a7 h7 a8 h8 a9 h9 a10 h10 a11 h11 a12 h12 a13 h13 a14 h14 a15 h15 a16 h16 a17 h17) K) := by
  simp only [cc0__elem_kernel_eq_skeleton]; unfold cc0__elem_kernel_skel
  unfold owns
  iintro ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ ⟨%f10, %hf10, H10⟩ ⟨%f11, %hf11, H11⟩ ⟨%f12, -, H12⟩ ⟨%f13, -, H13⟩ ⟨%f14, -, H14⟩ ⟨%f15, -, H15⟩ ⟨%f16, -, H16⟩ ⟨%f17, -, H17⟩ Hk
  subst hf0 hf1 hf2 hf3 hf4 hf5 hf6 hf7 hf8 hf9 hf10 hf11
  sl_exec
  sl_step
  iapply Hk $$ [H0] [H1] [H2] [H3] [H4] [H5] [H6] [H7] [H8] [H9] [H10] [H11] [H12] [H13] [H14] [H15] [H16] [H17] <;>
    (iexists _; isplitr; swap; iassumption; ipureintro; first | exact View.read_writes_eq_canon _ _ _ (cover0 _) | rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨_ + 18, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [(show ∀ d, _ = iblk0 V c 0 t from before0_of V _ (A_eq0 V c 0) (fetch0_0 t)), (show ∀ d, _ = iblk0 V c 1 t from before0_of V _ (A_eq0 V c 1) (fetch0_1 t)), (show ∀ d, _ = iblk0 V c 2 t from before0_of V _ (A_eq0 V c 2) (fetch0_2 t)), (show ∀ d, _ = iblk0 V c 3 t from before0_of V _ (A_eq0 V c 3) (fetch0_3 t)), (show ∀ d, _ = iblk0 V c 4 t from before0_of V _ (A_eq0 V c 4) (fetch0_4 t)), (show ∀ d, _ = iblk0 V c 5 t from before0_of V _ (A_eq0 V c 5) (fetch0_5 t)), (show ∀ d, _ = iblk0 V c 6 t from before0_of V _ (A_eq0 V c 6) (fetch0_6 t)), (show ∀ d, _ = iblk0 V c 7 t from before0_of V _ (A_eq0 V c 7) (fetch0_7 t)), (show ∀ d, _ = iblk0 V c 8 t from before0_of V _ (A_eq0 V c 8) (fetch0_8 t)), (show ∀ d, _ = iblk0 V c 9 t from before0_of V _ (A_eq0 V c 9) (fetch0_9 t)), (show ∀ d, _ = iblk0 V c 10 t from before0_of V _ (A_eq0 V c 10) (fetch0_10 t)), (show ∀ d, _ = iblk0 V c 11 t from before0_of V _ (A_eq0 V c 11) (fetch0_11 t))]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply sound_kernel0 c Set.univ $$ H0 H1 H2 H3 H4 H5 H6 H7 H8 H9 H10 H11 H12 H13 H14 H15 H16 H17
  iintro H0 H1 H2 H3 H4 H5 H6 H7 H8 H9 H10 H11 H12 H13 H14 H15 H16 H17
  iframe Ho
  dsimp only [dat0]
  iframe

end Cert.Kernel.R0

end
-- ==== Proof.Bits.R1Runs.lean ====
import proofs.«429766_j12146167513806_2_alg».proof.Proof.Gen.Kernel.Launch
import proofs.«429766_j12146167513806_2_alg».proof.Proof.Gen.Kernel.Skeleton
import proofs.«429766_j12146167513806_2_alg».proof.Proof.Gen.Kernel.Points
import Idealize.ShloMosaic.Lib.Pipeline.FrameBody
import Idealize.ShloMosaic.Lib.Ring
import Idealize.ShloMosaic.Lib.Tactic

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel

abbrev cond1_1 (i : grid1.Coords) : Prop := k1_cond2 i = 1#1
theorem hcond1_1 : ∀ t : Fin cfg1.N, cond1_1 (grid1.coords t) ↔ t.val = 5 := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, t.val = 5 → cfg1.idle 2 (grid1.coords t) = false := by decide +kernel
theorem idleAt1_2 : ∀ t : Fin cfg1.N, t.val ≠ 5 → cfg1.idle 2 (grid1.coords t) = true := by decide +kernel
theorem noFlush1_2 : ∀ t : Fin cfg1.N, t.val ≠ 5 → (cfg1.win 2).flush t = false := by decide +kernel

abbrev VO1_2 : View sig .tc .vmem S1x1 .f32 := (Memref.whole cc1_stg2_0 : Memref sig .tc .vmem S1x1 .f32).view
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

theorem owns_unread {c : Dev nD} {sp sh e} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) :=
  BI.equiv_iff.mp ⟨(by unfold owns; iintro ⟨%f, %hf, H⟩; obtain rfl := h.eq_unread hf; iexact H : (owns (c : Thread nD τ) m q X : sProp 𝕄) ⊢ _),
    by have := (owns_intro (c : Thread nD τ) m q (h.unread X) : (_ : sProp 𝕄) ⊢ _); rwa [h.read_unread] at this⟩

variable (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x128 .f32) (harg4 : arg4.IsWhole) (arg5 : Memref sig .tc .vmem S1x128 .f32) (harg5 : arg5.IsWhole)

set_option maxHeartbeats 1000000 in
def kernelRun1_A (hc0 : cond1_0 i) (hc1 : ¬cond1_1 i) (x0 x1 : Vec F S4096x128 .f32) :
    Σ' (L2 : List (View.Piece (Elt F) S1x1 .f32)), Σ' (LS0 : List (View.Piece (Elt F) S1x128 .f32)), { LS1 : List (View.Piece (Elt F) S1x128 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__sumsq_kernel i arg1 harg1 arg2 harg2 arg3 harg3 arg4 harg4 arg5 harg5) K } := by
  refine ⟨[], ?_, ?_, fun xi2 E K => ?run⟩
  case run =>
    simp only [owns_unread harg1, owns_unread harg2, owns_unread harg3, owns_unread harg4, owns_unread harg5, cc1__sumsq_kernel_eq_skeleton]
    unfold cc1__sumsq_kernel_skel
    iintro ⟨H0, H1, H2, ⟨%d0, HS0⟩, ⟨%d1, HS1⟩, Hk⟩
    sl_exec (disch := first | exact hc0 | exact hc1)
    sl_step
    iapply Hk
    iframe H0 H1 H2
    isplitl [HS0]; · iexists _; iexact HS0
    iexists _; iexact HS1

set_option maxHeartbeats 1000000 in
def kernelRun1_B (hc0 : ¬cond1_0 i) (hc1 : ¬cond1_1 i) (x0 x1 : Vec F S4096x128 .f32) (xs0 xs1 : Vec F S1x128 .f32) :
    Σ' (L2 : List (View.Piece (Elt F) S1x1 .f32)), Σ' (LS0 : List (View.Piece (Elt F) S1x128 .f32)), { LS1 : List (View.Piece (Elt F) S1x128 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__sumsq_kernel i arg1 harg1 arg2 harg2 arg3 harg3 arg4 harg4 arg5 harg5) K } := by
  refine ⟨[], ?_, ?_, fun xi2 E K => ?run⟩
  case run =>
    simp only [owns_unread harg1, owns_unread harg2, owns_unread harg3, owns_unread harg4, owns_unread harg5, cc1__sumsq_kernel_eq_skeleton]
    unfold cc1__sumsq_kernel_skel
    iintro ⟨H0, H1, H2, HS0, HS1, Hk⟩
    sl_exec (disch := first | exact hc0 | exact hc1)
    sl_step
    iapply Hk
    iframe H0 H1 H2
    isplitl [HS0]; · iexists _; iexact HS0
    iexists _; iexact HS1

set_option maxHeartbeats 1000000 in
def kernelRun1_C (hc0 : ¬cond1_0 i) (hc1 : cond1_1 i) (x0 x1 : Vec F S4096x128 .f32) (xs0 xs1 : Vec F S1x128 .f32) :
    Σ' (L2 : List (View.Piece (Elt F) S1x1 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__sumsq_kernel i arg1 harg1 arg2 harg2 arg3 harg3 arg4 harg4 arg5 harg5) K } := by
  refine ⟨?_, ?_, ?_, fun E K => ?run⟩
  case run =>
    simp only [owns_unread harg1, owns_unread harg2, owns_unread harg3, owns_unread harg4, owns_unread harg5, cc1__sumsq_kernel_eq_skeleton]
    unfold cc1__sumsq_kernel_skel
    iintro ⟨H0, H1, ⟨%d2, H2⟩, HS0, HS1, Hk⟩
    sl_exec (disch := first | exact hc0 | exact hc1)
    sl_step
    iapply Hk
    iframe H0 H1
    isplitl [H2]; · iexists _; iexact H2
    isplitl [HS0]; · iexists _; iexact HS0
    iexists _; iexact HS1

end Cert.Kernel.R1

end
-- ==== Proof.Bits.R1Body.lean ====
import proofs.«429766_j12146167513806_2_alg».proof.Proof.Bits.R1Runs

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x128 .f32) (harg4 : arg4.IsWhole) (arg5 : Memref sig .tc .vmem S1x128 .f32) (harg5 : arg5.IsWhole)

section
variable (hc0 : cond1_0 i) (hc1 : ¬cond1_1 i) (x0 x1 : Vec F S4096x128 .f32)

def out1_A_2 : Vec F S1x1 .f32 := VO1_2.read (Elt F) (VO1_2.writes (Elt F) VO1_2.junk (kernelRun1_A c i arg1 harg1 arg2 harg2 arg3 harg3 arg4 harg4 arg5 harg5 hc0 hc1 x0 x1).1)

theorem scover1_A_0 (y : S1x128.Idx) : ∃ pc ∈ (kernelRun1_A c i arg1 harg1 arg2 harg2 arg3 harg3 arg4 harg4 arg5 harg5 hc0 hc1 x0 x1).2.1, y ∈ pc.1.set :=
  View.cover_of_tiledL _ S1x128.size (by sl_kernel_rfl) y

def sout1_A_0 : Vec F S1x128 .f32 := VS1_0.read (Elt F) (VS1_0.writes (Elt F) VS1_0.junk (kernelRun1_A c i arg1 harg1 arg2 harg2 arg3 harg3 arg4 harg4 arg5 harg5 hc0 hc1 x0 x1).2.1)

theorem scover1_A_1 (y : S1x128.Idx) : ∃ pc ∈ (kernelRun1_A c i arg1 harg1 arg2 harg2 arg3 harg3 arg4 harg4 arg5 harg5 hc0 hc1 x0 x1).2.2.1, y ∈ pc.1.set :=
  View.cover_of_tiledL _ S1x128.size (by sl_kernel_rfl) y

def sout1_A_1 : Vec F S1x128 .f32 := VS1_1.read (Elt F) (VS1_1.writes (Elt F) VS1_1.junk (kernelRun1_A c i arg1 harg1 arg2 harg2 arg3 harg3 arg4 harg4 arg5 harg5 hc0 hc1 x0 x1).2.2.1)

end

section
variable (hc0 : ¬cond1_0 i) (hc1 : ¬cond1_1 i) (x0 x1 : Vec F S4096x128 .f32) (xs0 xs1 : Vec F S1x128 .f32)

def out1_B_2 : Vec F S1x1 .f32 := VO1_2.read (Elt F) (VO1_2.writes (Elt F) VO1_2.junk (kernelRun1_B c i arg1 harg1 arg2 harg2 arg3 harg3 arg4 harg4 arg5 harg5 hc0 hc1 x0 x1 xs0 xs1).1)

theorem scover1_B_0 (y : S1x128.Idx) : ∃ pc ∈ (kernelRun1_B c i arg1 harg1 arg2 harg2 arg3 harg3 arg4 harg4 arg5 harg5 hc0 hc1 x0 x1 xs0 xs1).2.1, y ∈ pc.1.set :=
  View.cover_of_tiledL _ S1x128.size (by sl_kernel_rfl) y

def sout1_B_0 : Vec F S1x128 .f32 := VS1_0.read (Elt F) (VS1_0.writes (Elt F) VS1_0.junk (kernelRun1_B c i arg1 harg1 arg2 harg2 arg3 harg3 arg4 harg4 arg5 harg5 hc0 hc1 x0 x1 xs0 xs1).2.1)

theorem scover1_B_1 (y : S1x128.Idx) : ∃ pc ∈ (kernelRun1_B c i arg1 harg1 arg2 harg2 arg3 harg3 arg4 harg4 arg5 harg5 hc0 hc1 x0 x1 xs0 xs1).2.2.1, y ∈ pc.1.set :=
  View.cover_of_tiledL _ S1x128.size (by sl_kernel_rfl) y

def sout1_B_1 : Vec F S1x128 .f32 := VS1_1.read (Elt F) (VS1_1.writes (Elt F) VS1_1.junk (kernelRun1_B c i arg1 harg1 arg2 harg2 arg3 harg3 arg4 harg4 arg5 harg5 hc0 hc1 x0 x1 xs0 xs1).2.2.1)

end

section
variable (hc0 : ¬cond1_0 i) (hc1 : cond1_1 i) (x0 x1 : Vec F S4096x128 .f32) (xs0 xs1 : Vec F S1x128 .f32)

theorem cover1_C_2 (y : S1x1.Idx) : ∃ pc ∈ (kernelRun1_C c i arg1 harg1 arg2 harg2 arg3 harg3 arg4 harg4 arg5 harg5 hc0 hc1 x0 x1 xs0 xs1).1, y ∈ pc.1.set :=
  View.cover_of_tiledL _ S1x1.size (by sl_kernel_rfl) y

def out1_C_2 : Vec F S1x1 .f32 := VO1_2.read (Elt F) (VO1_2.writes (Elt F) VO1_2.junk (kernelRun1_C c i arg1 harg1 arg2 harg2 arg3 harg3 arg4 harg4 arg5 harg5 hc0 hc1 x0 x1 xs0 xs1).1)

theorem scover1_C_0 (y : S1x128.Idx) : ∃ pc ∈ (kernelRun1_C c i arg1 harg1 arg2 harg2 arg3 harg3 arg4 harg4 arg5 harg5 hc0 hc1 x0 x1 xs0 xs1).2.1, y ∈ pc.1.set :=
  View.cover_of_tiledL _ S1x128.size (by sl_kernel_rfl) y

def sout1_C_0 : Vec F S1x128 .f32 := VS1_0.read (Elt F) (VS1_0.writes (Elt F) VS1_0.junk (kernelRun1_C c i arg1 harg1 arg2 harg2 arg3 harg3 arg4 harg4 arg5 harg5 hc0 hc1 x0 x1 xs0 xs1).2.1)

theorem scover1_C_1 (y : S1x128.Idx) : ∃ pc ∈ (kernelRun1_C c i arg1 harg1 arg2 harg2 arg3 harg3 arg4 harg4 arg5 harg5 hc0 hc1 x0 x1 xs0 xs1).2.2.1, y ∈ pc.1.set :=
  View.cover_of_tiledL _ S1x128.size (by sl_kernel_rfl) y

def sout1_C_1 : Vec F S1x128 .f32 := VS1_1.read (Elt F) (VS1_1.writes (Elt F) VS1_1.junk (kernelRun1_C c i arg1 harg1 arg2 harg2 arg3 harg3 arg4 harg4 arg5 harg5 hc0 hc1 x0 x1 xs0 xs1).2.2.1)

end

end

def outsA1 (c : Dev nD) (t : Fin cfg1.N) (h0 : t.val = 0) (h1 : ¬t.val = 5) : Vec F S1x1 .f32 × Vec F S1x128 .f32 × Vec F S1x128 .f32 :=
  (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp h1) (iblk1 V c 0 t) (iblk1 V c 1 t),
    sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp h1) (iblk1 V c 0 t) (iblk1 V c 1 t),
    sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp h1) (iblk1 V c 0 t) (iblk1 V c 1 t))

def outsB1 (c : Dev nD) (t : Fin cfg1.N) (h0 : ¬t.val = 0) (h1 : ¬t.val = 5) (xs0 xs1 : Vec F S1x128 .f32) : Vec F S1x1 .f32 × Vec F S1x128 .f32 × Vec F S1x128 .f32 :=
  (out1_B_2 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (iblk1 V c 1 t) xs0 xs1,
    sout1_B_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (iblk1 V c 1 t) xs0 xs1,
    sout1_B_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (iblk1 V c 1 t) xs0 xs1)

def outsC1 (c : Dev nD) (t : Fin cfg1.N) (h0 : ¬t.val = 0) (h1 : t.val = 5) (xs0 xs1 : Vec F S1x128 .f32) : Vec F S1x1 .f32 × Vec F S1x128 .f32 × Vec F S1x128 .f32 :=
  (out1_C_2 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (iblk1 V c 1 t) xs0 xs1,
    sout1_C_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (iblk1 V c 1 t) xs0 xs1,
    sout1_C_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (iblk1 V c 1 t) xs0 xs1)

-- Recursion on the position: each point's case takes the accumulators as the point before left them.
def outsAt1 (c : Dev nD) : (n : ℕ) → n < cfg1.N → Vec F S1x1 .f32 × Vec F S1x128 .f32 × Vec F S1x128 .f32
  | 0, hn => outsA1 V c ⟨0, hn⟩ rfl (show ¬0 = 5 by decide)
  | n + 1, hn =>
    if h1 : n + 1 = 5 then outsC1 V c ⟨n + 1, hn⟩ (Nat.succ_ne_zero n) h1 (outsAt1 c n (Nat.lt_of_succ_lt hn)).2.1 (outsAt1 c n (Nat.lt_of_succ_lt hn)).2.2
    else outsB1 V c ⟨n + 1, hn⟩ (Nat.succ_ne_zero n) h1 (outsAt1 c n (Nat.lt_of_succ_lt hn)).2.1 (outsAt1 c n (Nat.lt_of_succ_lt hn)).2.2

theorem outsAt1_A (c : Dev nD) (t : Fin cfg1.N) (h0 : t.val = 0) (h1 : ¬t.val = 5) :
    outsAt1 V c t.val t.isLt = outsA1 V c t h0 h1 := by
  obtain ⟨_ | n, hn⟩ := t
  exacts [rfl, absurd h0 (Nat.succ_ne_zero n)]

theorem outsAt1_B (c : Dev nD) (t : Fin cfg1.N) (h0 : ¬t.val = 0) (h1 : ¬t.val = 5) :
    outsAt1 V c t.val t.isLt = outsB1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨_ | n, hn⟩ := t
  exacts [absurd rfl h0, (dif_neg h1).trans rfl]

theorem outsAt1_C (c : Dev nD) (t : Fin cfg1.N) (h0 : ¬t.val = 0) (h1 : t.val = 5) :
    outsAt1 V c t.val t.isLt = outsC1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨_ | n, hn⟩ := t
  exacts [absurd rfl h0, (dif_pos h1).trans rfl]

abbrev accInv (c : Dev nD) (a b : Vec F S1x128 .f32) : sProp 𝕄 :=
  iprop(iprop(iprop(owns (c : Thread nD τ) scM1_0 fullShare a ∗ owns (c : Thread nD τ) scM1_1 fullShare b) ∗ rest1 c) ∗ (∃ r, prngReg c r))

def PhiS (c : Dev nD) : (n : ℕ) → n ≤ cfg1.N → sProp 𝕄
  | 0, _ => Pipeline.ΦA spec1 c
  | n + 1, hn => accInv c (outsAt1 V c n hn).2.1 (outsAt1 V c n hn).2.2

theorem PhiS_zero (c : Dev nD) (n : ℕ) (h : n ≤ cfg1.N) (hz : n = 0) : PhiS V c n h = Pipeline.ΦA spec1 c := by
  subst hz; rfl

theorem PhiS_pos (c : Dev nD) (n : ℕ) (h : n ≤ cfg1.N) (hz : n ≠ 0) :
    PhiS V c n h = accInv c (outsAt1 V c (n - 1) (by omega)).2.1 (outsAt1 V c (n - 1) (by omega)).2.2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

-- Under a cover the read-back does not depend on the prior contents.
theorem owns_of_cover {c : Dev nD} {sp sp' κ' s e} (v' : View sig κ' sp' s e) {m : Memref sig .tc sp s e} {L : List (View.Piece (Elt F) s e)}
    (hL : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v'.read (Elt F) (v'.writes (Elt F) v'.junk L)) := by
  iintro ⟨%f, H⟩; unfold owns; iexists _; isplitr; swap; · iexact H
  ipureintro; exact View.read_writes_of_cover _ _ _ _ _ hL

set_option maxHeartbeats 4800000 in
-- The closed forms of the two conditions select the case; its run applies, and the pieces it stores cover their buffers.
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t)) := by
  unfold bodyAt1
  simp only [before1_0, before1_1]
  rw [show (dat1 V c).owesAt () t.succ = (dat1 V c).owesAt () t.castSucc from rfl,
    show (dat1 V c).Φ t.succ = accInv c (outsAt1 V c t.val t.isLt).2.1 (outsAt1 V c t.val t.isLt).2.2 from rfl,
    show (dat1 V c).Φ t.castSucc = PhiS V c t.val (Nat.le_of_lt t.isLt) from rfl,
    show (dat1 V c).leavesExact 0 t = owns (c : Thread nD τ) (ms1_0 t) fullShare (iblk1 V c 0 t) from by
      unfold Dat.leavesExact; rw [liveAt1_0 t]; rfl,
    show (dat1 V c).leavesExact 1 t = owns (c : Thread nD τ) (ms1_1 t) fullShare (iblk1 V c 1 t) from by
      unfold Dat.leavesExact; rw [liveAt1_1 t]; rfl]
  by_cases h1 : t.val = 5
  · have h0 : ¬t.val = 0 := by omega
    rw [show (dat1 V c).leavesExact 2 t = owns (c : Thread nD τ) (ms1_2 t) fullShare (outsAt1 V c t.val t.isLt).1 from by
      unfold Dat.leavesExact; rw [liveAt1_2 t h1]; rfl, outsAt1_C V c t h0 h1, PhiS_pos V c _ _ h0]
    unfold accInv outsC1 out1_C_2 sout1_C_0 sout1_C_1; dsimp only
    iintro ⟨⟨⟨⟨HS0, HS1⟩, Hr⟩, Hg⟩, Ho, ⟨%d0, H0⟩, ⟨%d1, H1⟩, ⟨%d2, H2⟩⟩
    iapply ((kernelRun1_C c (grid1.coords t) _ _ _ _ _ _ _ _ _ _ (mt (hcond1_0 t).mp h0) ((hcond1_1 t).mpr h1) (iblk1 V c 0 t) (iblk1 V c 1 t) _ _).2.2.2 Set.univ _)
    iframe H0 H1 HS0 HS1
    isplitl [H2]; · iexists _; iexact H2
    iintro ⟨H0, H1, H2, HS0, HS1⟩
    ihave HS0 := (owns_of_cover VS1_0 (scover1_C_0 c _ _ _ _ _ _ _ _ _ _ _ _ _ _ _ _ _)) $$ HS0
    ihave HS1 := (owns_of_cover VS1_1 (scover1_C_1 c _ _ _ _ _ _ _ _ _ _ _ _ _ _ _ _ _)) $$ HS1
    ihave H2 := (owns_of_cover VO1_2 (cover1_C_2 c _ _ _ _ _ _ _ _ _ _ _ _ _ _ _ _ _)) $$ H2
    iframe
  · rw [Dat.leavesExact_idle (dat1 V c) 2 t (idleAt1_2 t h1) (noFlush1_2 t h1)]
    by_cases h0 : t.val = 0
    · rw [outsAt1_A V c t h0 h1, PhiS_zero V c _ _ h0, PhiA1_eq]
      unfold accInv outsA1 sout1_A_0 sout1_A_1; dsimp only
      iintro ⟨⟨⟨⟨HS0, HS1⟩, Hr⟩, Hg⟩, Ho, ⟨%d0, H0⟩, ⟨%d1, H1⟩, ⟨%d2, H2⟩⟩
      iapply ((kernelRun1_A c (grid1.coords t) _ _ _ _ _ _ _ _ _ _ ((hcond1_0 t).mpr h0) (mt (hcond1_1 t).mp h1) (iblk1 V c 0 t) (iblk1 V c 1 t)).2.2.2 _ Set.univ _)
      iframe H0 H1 H2 HS0 HS1
      iintro ⟨H0, H1, H2, HS0, HS1⟩
      ihave HS0 := (owns_of_cover VS1_0 (scover1_A_0 c _ _ _ _ _ _ _ _ _ _ _ _ _ _ _)) $$ HS0
      ihave HS1 := (owns_of_cover VS1_1 (scover1_A_1 c _ _ _ _ _ _ _ _ _ _ _ _ _ _ _)) $$ HS1
      iframe HS0 HS1 Hr Hg Ho H0 H1
      iexists _; iexact H2
    · rw [outsAt1_B V c t h0 h1, PhiS_pos V c _ _ h0]
      unfold accInv outsB1 sout1_B_0 sout1_B_1; dsimp only
      iintro ⟨⟨⟨⟨HS0, HS1⟩, Hr⟩, Hg⟩, Ho, ⟨%d0, H0⟩, ⟨%d1, H1⟩, ⟨%d2, H2⟩⟩
      iapply ((kernelRun1_B c (grid1.coords t) _ _ _ _ _ _ _ _ _ _ (mt (hcond1_0 t).mp h0) (mt (hcond1_1 t).mp h1) (iblk1 V c 0 t) (iblk1 V c 1 t) _ _).2.2.2 _ Set.univ _)
      iframe H0 H1 H2 HS0 HS1
      iintro ⟨H0, H1, H2, HS0, HS1⟩
      ihave HS0 := (owns_of_cover VS1_0 (scover1_B_0 c _ _ _ _ _ _ _ _ _ _ _ _ _ _ _ _ _)) $$ HS0
      ihave HS1 := (owns_of_cover VS1_1 (scover1_B_1 c _ _ _ _ _ _ _ _ _ _ _ _ _ _ _ _ _)) $$ HS1
      iframe HS0 HS1 Hr Hg Ho H0 H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

-- The accumulators' contents are forgotten.
theorem hout1 (c : Dev nD) : (dat1 V c).Φ (Fin.last cfg1.N) ⊢ Pipeline.ΦA spec1 c := by
  rw [show (dat1 V c).Φ (Fin.last cfg1.N) = PhiS V c cfg1.N (Nat.le_refl _) from rfl, PhiS_pos V c _ _ (by decide), PhiA1_eq]
  unfold accInv
  iintro ⟨⟨⟨HS0, HS1⟩, Hr⟩, Hg⟩
  iframe Hr Hg
  isplitl [HS0] <;> iexists _ <;> iassumption

end Cert.Kernel.R1

end
-- ==== Proof.Bits.FrameAsm.lean ====
import proofs.«429766_j12146167513806_2_alg».proof.Proof.RegionsK
import proofs.«429766_j12146167513806_2_alg».proof.Proof.Bits.R0Body
import proofs.«429766_j12146167513806_2_alg».proof.Proof.Bits.R1Body
import Idealize.ShloMosaic.Lib.Pipeline.RegionsLoop
import Idealize.ShloMosaic.Lib.Pipeline.FrameSuffix

noncomputable section

namespace Cert.Kernel.Asm

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

abbrev Ve0 : (c : Dev nD) → (b : Ref sig .tc) → Buf (Elt F) ((c : Thread nD τ).loc b) := fun c b => V32 m c b

def W33 (c : Dev nD) : Valuation τ sig (Elt F) :=
  Pipeline.withArrays spec0 c (V32 m c) fun w => (R0.dat0 (Ve0 m) c).arrAt w cfg0.N

theorem W33_arr (c : Dev nD) (w : Fin cfg0.W) :
    W33 m c (Proc.devRef .tc (Pipeline.arrRef spec0 w)) = (R0.dat0 (Ve0 m) c).arrAt w cfg0.N :=
  Pipeline.withArrays_arr spec0 launch0.win.arr_inj c _ _ w

def outsA : Outs (F := F) := fun _ r c => W33 m c r

abbrev Ve1 : (c : Dev nD) → (b : Ref sig .tc) → Buf (Elt F) ((c : Thread nD τ).loc b) := fun c b => V38 m (outsA m) c b

def W39 (c : Dev nD) : Valuation τ sig (Elt F) :=
  Pipeline.withArrays spec1 c (V38 m (outsA m) c) fun w => (R1.dat1 (Ve1 m) c).arrAt w cfg1.N

theorem W39_arr (c : Dev nD) (w : Fin cfg1.W) :
    W39 m c (Proc.devRef .tc (Pipeline.arrRef spec1 w)) = (R1.dat1 (Ve1 m) c).arrAt w cfg1.N :=
  Pipeline.withArrays_arr spec1 launch1.win.arr_inj c _ _ w

def outs : Outs (F := F) := fun J r c => if J = 33 then W33 m c r else W39 m c r

theorem outs_39 (r : Ref sig .tc) (c : Dev nD) : outs m 39 r c = W39 m c r := if_neg (by decide)

theorem exit_agree (g : Valuation τ sig (Elt F)) (b : Ref sig .tc) :
    ∀ (l : List (Ref sig .tc)) (f : Valuation τ sig (Elt F)), (b ∉ l → f b = g b) →
      l.foldl (fun f r => Function.update f (Proc.devRef .tc r) (g r)) f b = g b
  | [], _, h => h List.not_mem_nil
  | a :: l, f, h => exit_agree g b l _ fun hb => by
    rcases eq_or_ne b a with rfl | e
    · exact Function.update_self ..
    · exact (Function.update_of_ne (StableHlo.devRef_ne_of_ne e) ..).trans (h (List.not_mem_cons_of_ne_of_not_mem e hb))

theorem exit_eq {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Pipeline.arrRef cfg.spec w))
    (l : List (Ref sig .tc)) (hl : ∀ w, (cfg.win w).isOut = false ∨ Pipeline.arrRef cfg.spec w ∈ l) (b : Ref sig .tc) :
    l.foldl (fun f r => Function.update f (Proc.devRef .tc r) (Pipeline.withArrays cfg.spec c V (D.arrAt · cfg.N) r)) V b
      = Pipeline.withArrays cfg.spec c V (D.arrAt · cfg.N) b :=
  exit_agree _ b l V fun hb => by
    by_cases hw : ∃ w, Pipeline.arrRef cfg.spec w = b
    · obtain ⟨w, rfl⟩ := hw
      rw [Pipeline.withArrays_arr _ hinj, D.arrAt_in w ((hl w).resolve_right hb), hA]
    · exact (Pipeline.withArrays_of_ne _ c V _ b fun w e => hw ⟨w, e⟩).symm

def pdats : (p : Fin 2) → (c : Dev nD) → Dat τ (Elt F) Unit ℕ (UR sig nD τ) ℕ (cfgs p) c
  | ⟨0, _⟩ => fun c => R0.dat0 (Ve0 m) c
  | ⟨1, _⟩ => fun c => R1.dat1 (Ve1 m) c

theorem pd : ∀ (p : Fin 2) (c : Dev nD), (∀ t, (pdats m p c).owed t = 0) ∧ (∀ w, (pdats m p c).q w = fullShare)
      ∧ ∀ t, (pdats m p c).recorded t = Set.univ
  | ⟨0, _⟩, _ => ⟨fun _ => rfl, fun _ => rfl, fun _ => rfl⟩
  | ⟨1, _⟩, _ => ⟨fun _ => rfl, fun _ => rfl, fun _ => rfl⟩

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg (p : Fin 2) (lf : Pipeline.LaunchFacts (nD := nD) (τ := τ) cfgs p) (V V' : Dev nD → Valuation τ sig (Elt F))
    (hb : ∀ c, BodyObligation (pdats m p c) defs₀ Variants.none () Set.univ)
    (hA : ∀ c w, (pdats m p c).A w = V c (Pipeline.arrRef (cfgs p).spec w))
    (hi : ∀ c, Pipeline.ΦA (cfgs p).spec c ⊢ (pdats m p c).Φ 0)
    (ho : ∀ c, (pdats m p c).Φ (Fin.last _) ⊢ Pipeline.ΦA (cfgs p).spec c)
    (hV : ∀ c (b : Ref sig .tc), V' c b = Pipeline.withArrays (cfgs p).spec c (V c) ((pdats m p c).arrAt · (cfgs p).N) b) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pd m p c).1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c fun b => V c b
  hentry c := by
    have hs := Pipeline.arrays_of_unscopedBufs (pcfgs (F := F)) adm (pdats m) lf.win lf.arr_whole c
      ((pdats m p c).share_full (pd m p c).2.1) (fun b => V c b) (hA c)
    rw [Pipeline.unscopedBufs_held] at hs
    unfold Pipeline.prefHeld Pipeline.Dat.owesAt Pipeline.owesWithin
    rw [(pd m p c).1, show (Finset.univ : Finset (Fin 0)) = ∅ from rfl, BI.bigSep_empty]
    iintro ⟨⟨Hub, Hp, %W, HO⟩, -⟩
    ihave ⟨Ha, Hrest⟩ := hs $$ Hub
    imodintro
    iframe
    isplitr; · iempintro
    iexists W; isplitr; · ipureintro; exact fun _ _ => Or.inl ((pd m p c).2.2 0 ▸ trivial)
    iexact HO
  hin c := by
    refine .trans ?_ (hi c)
    unfold Pipeline.ΦA
    iintro ⟨Hp, -, Hr⟩
    iframe
  hout c := by
    rw [Pipeline.ownSems0_none]
    refine (ho c).trans ?_
    unfold Pipeline.ΦA
    iintro ⟨Hr, Hp⟩
    iframe
    iempintro
  hexit c := by
    have hj := Pipeline.unscopedBufs_of_arrays (pcfgs (F := F)) adm
      lf.win lf.arr_whole c (pdats m) ((pdats m p c).share_full (pd m p c).2.1)
      (fun b => V c b) (fun b => V' c b) ((pdats m p c).arrAt · (cfgs p).N)
      (fun w => ((hV c _).trans (Pipeline.withArrays_arr _ lf.win.arr_inj c _ _ w)).symm)
      (fun b hb => (hV c b).trans (Pipeline.withArrays_of_ne _ c _ _ b fun w e => hb (Finset.mem_image.2 ⟨w, Finset.mem_univ _, e⟩)))
    rw [Pipeline.unscopedBufs_held] at hj
    unfold Pipeline.Dat.owesAt Pipeline.owesWithin R
    rw [(pd m p c).1]
    iintro ⟨Ha, ⟨%W, -, HO⟩, HY, Hrest⟩
    imodintro
    iframe
    isplitl [Ha Hrest]
    · iapply hj; iframe
    iexists W; iexact HO

def reg0 := reg m 0 launch0 (V32 m) (V33 m (outs m)) (R0.body_obligation0 (Ve0 m)) (fun _ _ => rfl) (fun _ => .rfl) (fun _ => .rfl)
  fun c => exit_eq (R0.dat0 (Ve0 m) c) (V32 m c) launch0.win.arr_inj (fun _ => rfl)
    [main_v53_0, main_v53_1, main_v53_2, main_v53_3, main_v53_4, main_v53_5] (by decide)

def reg1 := reg m 1 launch1 (V38 m (outs m)) (V39 m (outs m)) (R1.body_obligation1 (Ve1 m)) (fun _ _ => rfl) (R1.hin1 (Ve1 m)) (R1.hout1 (Ve1 m))
  fun c => exit_eq (R1.dat1 (Ve1 m) c) (V38 m (outs m) c) launch1.win.arr_inj (fun _ => rfl) [main_v95] (by decide)

set_option backward.isDefEq.respectTransparency.types false in
theorem run_all (ρ : Dev nD → PrngReg) : θ_run defs (onTc (τ := τ) (main (F := F))) ⟨m, fun _ => 0, ρ⟩ (fun r => ∀ c : Dev nD,
      r.2.mem ((c.tc : Thread nD τ).loc main_v96) = V40 m (outs m) c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ Variants.none L lv m ρ main
    (segs m (outs m) Variants.none L lv E () (pdats m) (reg0 m) (reg1 m))
    (fun c Q => Entails.of_eq (congrArg (wp _ _ _ · Q) ((Pipeline.Seg.run_eq_chain _).trans (main_chain c).symm)))
    (fun c => (by decide : [(0 : Fin 2), 1].Nodup)) 0 (fun _ _ => rfl) (fun _ => BI.emp)
    (initOf (Pipeline.cells cfgs cellOf_inj) (Pipeline.launchToks cfgs cellOf_inj))
    (by rw [BI.bigSep_emp_const]; exact sep_emp.2.trans fupd_intro)
    (T₀ := fun c => iprop(StableHlo.held (c : Thread nD τ) (Pipeline.ucRefs τ sig) (V0 m c) ∗ E 0 c))
    (Tₙ := fun c => StableHlo.held (c : Thread nD τ) (Pipeline.ucRefs τ sig) (V40 m (outs m) c))
    (hch := fun c => by
      repeat' first | exact .rfl | apply And.intro
      exact sep_mono .rfl (by iintro ⟨-, HO⟩; iexact HO))
    (hinit := ?_) (hfin := fun c s' => ?_) (hQ := fun _ h => h)
  · refine Pipeline.initEach L lv fun c => ?_
    rw [← Pipeline.unscopedBufs_held c (V0 m c)]
    iintro ⟨⟨Hh, -, HO, -, Hp, -⟩, -⟩
    imodintro
    iframe
    isplitl [Hp]; · iexists _; iexact Hp
    iexists ∅; iexact HO
  · refine (pointsTo_read_all _ (fun b => ((c : Thread nD τ).1, b)) (V40 m (outs m) c) s').trans
      ((sep_mono (pure_mono fun h => ?_) .rfl).trans fupd_intro)
    have hh := fun (r : Ref sig .tc) hr x => @Eq.trans _ _ _ x (h _ (mem_uc r hr))
    exact ⟨hh _ (by decide) _ rfl,
      hh _ (by decide) _ (V40_main_arg0 m _ c),
      hh _ (by decide) _ (V40_main_arg1 m _ c),
      hh _ (by decide) _ (V40_main_arg2 m _ c),
      hh _ (by decide) _ (V40_main_arg3 m _ c),
      hh _ (by decide) _ (V40_main_arg4 m _ c),
      hh _ (by decide) _ (V40_main_arg5 m _ c),
      hh _ (by decide) _ (V40_main_arg6 m _ c),
      hh _ (by decide) _ (V40_main_arg7 m _ c),
      hh _ (by decide) _ (V40_main_arg8 m _ c),
      hh _ (by decide) _ (V40_main_arg9 m _ c),
      hh _ (by decide) _ (V40_main_arg10 m _ c),
      hh _ (by decide) _ (V40_main_arg11 m _ c)⟩

-- The frame is the run with the result buffer forgotten.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_all m ρ)

end Cert.Kernel.Asm

end
-- ==== Proof.R0Body.lean ====
import proofs.«429766_j12146167513806_2_alg».proof.Proof.Gen.KernelIdeal.Launch
import proofs.«429766_j12146167513806_2_alg».proof.Proof.Gen.KernelIdeal.Skeleton
import proofs.«429766_j12146167513806_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) {w : Fin cfg0.W} (hA : dat.A w = V c (Pipeline.arrRef spec0 w))
    {t : Fin cfg0.N} (hf : (cfg0.win w).fetch t = true) (d) :
    dat.before w t d = (cfg0.win w).fill (cfg0.grid.coords t) d (iblk0 V c w t) := by
  rw [dat.before_fetched w t hf d]; unfold Dat.fetched Dat.blockOf iblk0; rw [hA]

abbrev r0_0 : Rect S1024x128 := Rect.unit (s := S1024x128) ![0, 0] S1024x128.size inb_S1024x128_S1024x128_0_0

def out0_12 (x0 x1 x2 x3 x4 x5 x6 x7 x8 x9 x10 x11 : Vec F S1024x128 .f32) : Vec F S1024x128 .f32 :=
  View.canon [⟨r0_0, k0_pay22 (k0_pay1 (View.ld x6 r0_0)) (k0_pay2 (View.ld x7 r0_0)) (k0_pay17 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0))⟩]
def out0_13 (x0 x1 x2 x3 x4 x5 x6 x7 x8 x9 x10 x11 : Vec F S1024x128 .f32) : Vec F S1024x128 .f32 :=
  View.canon [⟨r0_0, k0_pay23 (k0_pay1 (View.ld x6 r0_0)) (k0_pay2 (View.ld x7 r0_0)) (k0_pay17 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0))⟩]
def out0_14 (x0 x1 x2 x3 x4 x5 x6 x7 x8 x9 x10 x11 : Vec F S1024x128 .f32) : Vec F S1024x128 .f32 :=
  View.canon [⟨r0_0, k0_pay24 (k0_pay19 (k0_pay1 (View.ld x6 r0_0)) (k0_pay2 (View.ld x7 r0_0)) (k0_pay6 (View.ld x8 r0_0) (View.ld x9 r0_0) (View.ld x11 r0_0)) (k0_pay7 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0))⟩]
def out0_15 (x0 x1 x2 x3 x4 x5 x6 x7 x8 x9 x10 x11 : Vec F S1024x128 .f32) : Vec F S1024x128 .f32 :=
  View.canon [⟨r0_0, k0_pay25 (k0_pay1 (View.ld x6 r0_0)) (k0_pay2 (View.ld x7 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0)) (k0_pay20 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (Scalar.ofBits .f32 0x00000000#32)⟩]
def out0_16 (x0 x1 x2 x3 x4 x5 x6 x7 x8 x9 x10 x11 : Vec F S1024x128 .f32) : Vec F S1024x128 .f32 :=
  View.canon [⟨r0_0, k0_pay26 (k0_pay1 (View.ld x6 r0_0)) (k0_pay2 (View.ld x7 r0_0)) (k0_pay18 (k0_pay1 (View.ld x6 r0_0)) (k0_pay2 (View.ld x7 r0_0)) (k0_pay7 (View.ld x8 r0_0) (View.ld x9 r0_0) (View.ld x11 r0_0)) (k0_pay8 (View.ld x8 r0_0) (View.ld x9 r0_0) (View.ld x11 r0_0)) (k0_pay9 (View.ld x0 r0_0)) (k0_pay10 (View.ld x1 r0_0)) (k0_pay11 (View.ld x2 r0_0)) (k0_pay12 (View.ld x3 r0_0)) (View.ld x4 r0_0) (View.ld x5 r0_0)) (k0_pay20 (k0_pay1 (View.ld x6 r0_0)) (k0_pay2 (View.ld x7 r0_0)) (k0_pay5 (View.ld x8 r0_0) (View.ld x9 r0_0) (View.ld x10 r0_0)) (k0_pay9 (View.ld x0 r0_0)) (k0_pay10 (View.ld x1 r0_0)) (k0_pay12 (View.ld x3 r0_0)) (View.ld x4 r0_0)) (Scalar.ofBits .f32 0x00000000#32)⟩]
def out0_17 (x0 x1 x2 x3 x4 x5 x6 x7 x8 x9 x10 x11 : Vec F S1024x128 .f32) : Vec F S1024x128 .f32 :=
  View.canon [⟨r0_0, k0_pay27 (k0_pay6 (View.ld x8 r0_0) (View.ld x9 r0_0) (View.ld x11 r0_0)) (k0_pay7 (View.ld x8 r0_0) (View.ld x9 r0_0) (View.ld x11 r0_0)) (k0_pay14 (k0_pay11 (View.ld x2 r0_0))) (k0_pay15 (View.ld x5 r0_0)) (k0_pay16 (k0_pay1 (View.ld x6 r0_0)) (k0_pay2 (View.ld x7 r0_0)) (k0_pay9 (View.ld x0 r0_0)) (k0_pay10 (View.ld x1 r0_0)) (k0_pay12 (View.ld x3 r0_0)) (View.ld x4 r0_0))⟩]

theorem cover0 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

set_option maxHeartbeats 1000000 in
theorem sound_kernel0 (c : Dev nD) (E : Set ℕ) {i : grid0.Coords} {a0 a1 a2 a3 a4 a5 a6 a7 a8 a9 a10 a11 a12 a13 a14 a15 a16 a17 : Memref sig .tc .vmem S1024x128 .f32}
    {h0 : a0.IsWhole} {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {h16 : a16.IsWhole} {h17 : a17.IsWhole}
    {x0 x1 x2 x3 x4 x5 x6 x7 x8 x9 x10 x11 y12 y13 y14 y15 y16 y17 : Vec F S1024x128 .f32} {K : PUnit → sProp 𝕄} :
    ⊢ iprop(owns c a0 fullShare x0 -∗ owns c a1 fullShare x1 -∗ owns c a2 fullShare x2 -∗ owns c a3 fullShare x3 -∗ owns c a4 fullShare x4 -∗ owns c a5 fullShare x5 -∗ owns c a6 fullShare x6 -∗ owns c a7 fullShare x7 -∗ owns c a8 fullShare x8 -∗ owns c a9 fullShare x9 -∗ owns c a10 fullShare x10 -∗ owns c a11 fullShare x11 -∗ owns c a12 fullShare y12 -∗ owns c a13 fullShare y13 -∗ owns c a14 fullShare y14 -∗ owns c a15 fullShare y15 -∗ owns c a16 fullShare y16 -∗ owns c a17 fullShare y17
      -∗ (owns c a0 fullShare x0 -∗ owns c a1 fullShare x1 -∗ owns c a2 fullShare x2 -∗ owns c a3 fullShare x3 -∗ owns c a4 fullShare x4 -∗ owns c a5 fullShare x5 -∗ owns c a6 fullShare x6 -∗ owns c a7 fullShare x7 -∗ owns c a8 fullShare x8 -∗ owns c a9 fullShare x9 -∗ owns c a10 fullShare x10 -∗ owns c a11 fullShare x11 -∗ owns c a12 fullShare (out0_12 x0 x1 x2 x3 x4 x5 x6 x7 x8 x9 x10 x11) -∗ owns c a13 fullShare (out0_13 x0 x1 x2 x3 x4 x5 x6 x7 x8 x9 x10 x11) -∗ owns c a14 fullShare (out0_14 x0 x1 x2 x3 x4 x5 x6 x7 x8 x9 x10 x11) -∗ owns c a15 fullShare (out0_15 x0 x1 x2 x3 x4 x5 x6 x7 x8 x9 x10 x11) -∗ owns c a16 fullShare (out0_16 x0 x1 x2 x3 x4 x5 x6 x7 x8 x9 x10 x11) -∗ owns c a17 fullShare (out0_17 x0 x1 x2 x3 x4 x5 x6 x7 x8 x9 x10 x11) -∗ K ⟨⟩)
      -∗ wp frame (wpE (defs₀ (F := F)) Variants.none c none) E (cc0__elem_kernel i a0 h0 a1 h1 a2 h2 a3 h3 a4 h4 a5 h5 a6 h6 a7 h7 a8 h8 a9 h9 a10 h10 a11 h11 a12 h12 a13 h13 a14 h14 a15 h15 a16 h16 a17 h17) K) := by
  simp only [cc0__elem_kernel_eq_skeleton]; unfold cc0__elem_kernel_skel
  unfold owns
  iintro ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ ⟨%f10, %hf10, H10⟩ ⟨%f11, %hf11, H11⟩ ⟨%f12, -, H12⟩ ⟨%f13, -, H13⟩ ⟨%f14, -, H14⟩ ⟨%f15, -, H15⟩ ⟨%f16, -, H16⟩ ⟨%f17, -, H17⟩ Hk
  subst hf0 hf1 hf2 hf3 hf4 hf5 hf6 hf7 hf8 hf9 hf10 hf11
  sl_exec
  sl_step
  iapply Hk $$ [H0] [H1] [H2] [H3] [H4] [H5] [H6] [H7] [H8] [H9] [H10] [H11] [H12] [H13] [H14] [H15] [H16] [H17] <;>
    (iexists _; isplitr; swap; iassumption; ipureintro; first | exact View.read_writes_eq_canon _ _ _ (cover0 _) | rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨_ + 18, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [(show ∀ d, _ = iblk0 V c 0 t from before0_of V _ (A_eq0 V c 0) (fetch0_0 t)), (show ∀ d, _ = iblk0 V c 1 t from before0_of V _ (A_eq0 V c 1) (fetch0_1 t)), (show ∀ d, _ = iblk0 V c 2 t from before0_of V _ (A_eq0 V c 2) (fetch0_2 t)), (show ∀ d, _ = iblk0 V c 3 t from before0_of V _ (A_eq0 V c 3) (fetch0_3 t)), (show ∀ d, _ = iblk0 V c 4 t from before0_of V _ (A_eq0 V c 4) (fetch0_4 t)), (show ∀ d, _ = iblk0 V c 5 t from before0_of V _ (A_eq0 V c 5) (fetch0_5 t)), (show ∀ d, _ = iblk0 V c 6 t from before0_of V _ (A_eq0 V c 6) (fetch0_6 t)), (show ∀ d, _ = iblk0 V c 7 t from before0_of V _ (A_eq0 V c 7) (fetch0_7 t)), (show ∀ d, _ = iblk0 V c 8 t from before0_of V _ (A_eq0 V c 8) (fetch0_8 t)), (show ∀ d, _ = iblk0 V c 9 t from before0_of V _ (A_eq0 V c 9) (fetch0_9 t)), (show ∀ d, _ = iblk0 V c 10 t from before0_of V _ (A_eq0 V c 10) (fetch0_10 t)), (show ∀ d, _ = iblk0 V c 11 t from before0_of V _ (A_eq0 V c 11) (fetch0_11 t))]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply sound_kernel0 c Set.univ $$ H0 H1 H2 H3 H4 H5 H6 H7 H8 H9 H10 H11 H12 H13 H14 H15 H16 H17
  iintro H0 H1 H2 H3 H4 H5 H6 H7 H8 H9 H10 H11 H12 H13 H14 H15 H16 H17
  iframe Ho
  dsimp only [dat0]
  iframe

end Cert.KernelIdeal.R0

end
-- ==== Proof.R1Runs.lean ====
import proofs.«429766_j12146167513806_2_alg».proof.Proof.Gen.KernelIdeal.Launch
import proofs.«429766_j12146167513806_2_alg».proof.Proof.Gen.KernelIdeal.Skeleton
import proofs.«429766_j12146167513806_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel

abbrev cond1_1 (i : grid1.Coords) : Prop := k1_cond2 i = 1#1
theorem hcond1_1 : ∀ t : Fin cfg1.N, cond1_1 (grid1.coords t) ↔ t.val = 5 := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, t.val = 5 → cfg1.idle 2 (grid1.coords t) = false := by decide +kernel
theorem idleAt1_2 : ∀ t : Fin cfg1.N, t.val ≠ 5 → cfg1.idle 2 (grid1.coords t) = true := by decide +kernel
theorem noFlush1_2 : ∀ t : Fin cfg1.N, t.val ≠ 5 → (cfg1.win 2).flush t = false := by decide +kernel

abbrev VO1_2 : View sig .tc .vmem S1x1 .f32 := (Memref.whole cc1_stg2_0 : Memref sig .tc .vmem S1x1 .f32).view
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

theorem owns_unread {c : Dev nD} {sp sh e} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) :=
  BI.equiv_iff.mp ⟨(by unfold owns; iintro ⟨%f, %hf, H⟩; obtain rfl := h.eq_unread hf; iexact H : (owns (c : Thread nD τ) m q X : sProp 𝕄) ⊢ _),
    by have := (owns_intro (c : Thread nD τ) m q (h.unread X) : (_ : sProp 𝕄) ⊢ _); rwa [h.read_unread] at this⟩

variable (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x128 .f32) (harg4 : arg4.IsWhole) (arg5 : Memref sig .tc .vmem S1x128 .f32) (harg5 : arg5.IsWhole)

set_option maxHeartbeats 1000000 in
def kernelRun1_A (hc0 : cond1_0 i) (hc1 : ¬cond1_1 i) (x0 x1 : Vec F S4096x128 .f32) :
    Σ' (L2 : List (View.Piece (Elt F) S1x1 .f32)), Σ' (LS0 : List (View.Piece (Elt F) S1x128 .f32)), { LS1 : List (View.Piece (Elt F) S1x128 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__sumsq_kernel i arg1 harg1 arg2 harg2 arg3 harg3 arg4 harg4 arg5 harg5) K } := by
  refine ⟨[], ?_, ?_, fun xi2 E K => ?run⟩
  case run =>
    simp only [owns_unread harg1, owns_unread harg2, owns_unread harg3, owns_unread harg4, owns_unread harg5, cc1__sumsq_kernel_eq_skeleton]
    unfold cc1__sumsq_kernel_skel
    iintro ⟨H0, H1, H2, ⟨%d0, HS0⟩, ⟨%d1, HS1⟩, Hk⟩
    sl_exec (disch := first | exact hc0 | exact hc1)
    sl_step
    iapply Hk
    iframe H0 H1 H2
    isplitl [HS0]; · iexists _; iexact HS0
    iexists _; iexact HS1

set_option maxHeartbeats 1000000 in
def kernelRun1_B (hc0 : ¬cond1_0 i) (hc1 : ¬cond1_1 i) (x0 x1 : Vec F S4096x128 .f32) (xs0 xs1 : Vec F S1x128 .f32) :
    Σ' (L2 : List (View.Piece (Elt F) S1x1 .f32)), Σ' (LS0 : List (View.Piece (Elt F) S1x128 .f32)), { LS1 : List (View.Piece (Elt F) S1x128 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__sumsq_kernel i arg1 harg1 arg2 harg2 arg3 harg3 arg4 harg4 arg5 harg5) K } := by
  refine ⟨[], ?_, ?_, fun xi2 E K => ?run⟩
  case run =>
    simp only [owns_unread harg1, owns_unread harg2, owns_unread harg3, owns_unread harg4, owns_unread harg5, cc1__sumsq_kernel_eq_skeleton]
    unfold cc1__sumsq_kernel_skel
    iintro ⟨H0, H1, H2, HS0, HS1, Hk⟩
    sl_exec (disch := first | exact hc0 | exact hc1)
    sl_step
    iapply Hk
    iframe H0 H1 H2
    isplitl [HS0]; · iexists _; iexact HS0
    iexists _; iexact HS1

set_option maxHeartbeats 1000000 in
def kernelRun1_C (hc0 : ¬cond1_0 i) (hc1 : cond1_1 i) (x0 x1 : Vec F S4096x128 .f32) (xs0 xs1 : Vec F S1x128 .f32) :
    Σ' (L2 : List (View.Piece (Elt F) S1x1 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__sumsq_kernel i arg1 harg1 arg2 harg2 arg3 harg3 arg4 harg4 arg5 harg5) K } := by
  refine ⟨?_, ?_, ?_, fun E K => ?run⟩
  case run =>
    simp only [owns_unread harg1, owns_unread harg2, owns_unread harg3, owns_unread harg4, owns_unread harg5, cc1__sumsq_kernel_eq_skeleton]
    unfold cc1__sumsq_kernel_skel
    iintro ⟨H0, H1, ⟨%d2, H2⟩, HS0, HS1, Hk⟩
    sl_exec (disch := first | exact hc0 | exact hc1)
    sl_step
    iapply Hk
    iframe H0 H1
    isplitl [H2]; · iexists _; iexact H2
    isplitl [HS0]; · iexists _; iexact HS0
    iexists _; iexact HS1

end Cert.KernelIdeal.R1

end
-- ==== Proof.R1Body.lean ====
import proofs.«429766_j12146167513806_2_alg».proof.Proof.R1Runs

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x128 .f32) (harg4 : arg4.IsWhole) (arg5 : Memref sig .tc .vmem S1x128 .f32) (harg5 : arg5.IsWhole)

section
variable (hc0 : cond1_0 i) (hc1 : ¬cond1_1 i) (x0 x1 : Vec F S4096x128 .f32)

def out1_A_2 : Vec F S1x1 .f32 := VO1_2.read (Elt F) (VO1_2.writes (Elt F) VO1_2.junk (kernelRun1_A c i arg1 harg1 arg2 harg2 arg3 harg3 arg4 harg4 arg5 harg5 hc0 hc1 x0 x1).1)

theorem scover1_A_0 (y : S1x128.Idx) : ∃ pc ∈ (kernelRun1_A c i arg1 harg1 arg2 harg2 arg3 harg3 arg4 harg4 arg5 harg5 hc0 hc1 x0 x1).2.1, y ∈ pc.1.set :=
  View.cover_of_tiledL _ S1x128.size (by sl_kernel_rfl) y

def sout1_A_0 : Vec F S1x128 .f32 := VS1_0.read (Elt F) (VS1_0.writes (Elt F) VS1_0.junk (kernelRun1_A c i arg1 harg1 arg2 harg2 arg3 harg3 arg4 harg4 arg5 harg5 hc0 hc1 x0 x1).2.1)

theorem scover1_A_1 (y : S1x128.Idx) : ∃ pc ∈ (kernelRun1_A c i arg1 harg1 arg2 harg2 arg3 harg3 arg4 harg4 arg5 harg5 hc0 hc1 x0 x1).2.2.1, y ∈ pc.1.set :=
  View.cover_of_tiledL _ S1x128.size (by sl_kernel_rfl) y

def sout1_A_1 : Vec F S1x128 .f32 := VS1_1.read (Elt F) (VS1_1.writes (Elt F) VS1_1.junk (kernelRun1_A c i arg1 harg1 arg2 harg2 arg3 harg3 arg4 harg4 arg5 harg5 hc0 hc1 x0 x1).2.2.1)

end

section
variable (hc0 : ¬cond1_0 i) (hc1 : ¬cond1_1 i) (x0 x1 : Vec F S4096x128 .f32) (xs0 xs1 : Vec F S1x128 .f32)

def out1_B_2 : Vec F S1x1 .f32 := VO1_2.read (Elt F) (VO1_2.writes (Elt F) VO1_2.junk (kernelRun1_B c i arg1 harg1 arg2 harg2 arg3 harg3 arg4 harg4 arg5 harg5 hc0 hc1 x0 x1 xs0 xs1).1)

theorem scover1_B_0 (y : S1x128.Idx) : ∃ pc ∈ (kernelRun1_B c i arg1 harg1 arg2 harg2 arg3 harg3 arg4 harg4 arg5 harg5 hc0 hc1 x0 x1 xs0 xs1).2.1, y ∈ pc.1.set :=
  View.cover_of_tiledL _ S1x128.size (by sl_kernel_rfl) y

def sout1_B_0 : Vec F S1x128 .f32 := VS1_0.read (Elt F) (VS1_0.writes (Elt F) VS1_0.junk (kernelRun1_B c i arg1 harg1 arg2 harg2 arg3 harg3 arg4 harg4 arg5 harg5 hc0 hc1 x0 x1 xs0 xs1).2.1)

theorem scover1_B_1 (y : S1x128.Idx) : ∃ pc ∈ (kernelRun1_B c i arg1 harg1 arg2 harg2 arg3 harg3 arg4 harg4 arg5 harg5 hc0 hc1 x0 x1 xs0 xs1).2.2.1, y ∈ pc.1.set :=
  View.cover_of_tiledL _ S1x128.size (by sl_kernel_rfl) y

def sout1_B_1 : Vec F S1x128 .f32 := VS1_1.read (Elt F) (VS1_1.writes (Elt F) VS1_1.junk (kernelRun1_B c i arg1 harg1 arg2 harg2 arg3 harg3 arg4 harg4 arg5 harg5 hc0 hc1 x0 x1 xs0 xs1).2.2.1)

end

section
variable (hc0 : ¬cond1_0 i) (hc1 : cond1_1 i) (x0 x1 : Vec F S4096x128 .f32) (xs0 xs1 : Vec F S1x128 .f32)

theorem cover1_C_2 (y : S1x1.Idx) : ∃ pc ∈ (kernelRun1_C c i arg1 harg1 arg2 harg2 arg3 harg3 arg4 harg4 arg5 harg5 hc0 hc1 x0 x1 xs0 xs1).1, y ∈ pc.1.set :=
  View.cover_of_tiledL _ S1x1.size (by sl_kernel_rfl) y

def out1_C_2 : Vec F S1x1 .f32 := VO1_2.read (Elt F) (VO1_2.writes (Elt F) VO1_2.junk (kernelRun1_C c i arg1 harg1 arg2 harg2 arg3 harg3 arg4 harg4 arg5 harg5 hc0 hc1 x0 x1 xs0 xs1).1)

theorem scover1_C_0 (y : S1x128.Idx) : ∃ pc ∈ (kernelRun1_C c i arg1 harg1 arg2 harg2 arg3 harg3 arg4 harg4 arg5 harg5 hc0 hc1 x0 x1 xs0 xs1).2.1, y ∈ pc.1.set :=
  View.cover_of_tiledL _ S1x128.size (by sl_kernel_rfl) y

def sout1_C_0 : Vec F S1x128 .f32 := VS1_0.read (Elt F) (VS1_0.writes (Elt F) VS1_0.junk (kernelRun1_C c i arg1 harg1 arg2 harg2 arg3 harg3 arg4 harg4 arg5 harg5 hc0 hc1 x0 x1 xs0 xs1).2.1)

theorem scover1_C_1 (y : S1x128.Idx) : ∃ pc ∈ (kernelRun1_C c i arg1 harg1 arg2 harg2 arg3 harg3 arg4 harg4 arg5 harg5 hc0 hc1 x0 x1 xs0 xs1).2.2.1, y ∈ pc.1.set :=
  View.cover_of_tiledL _ S1x128.size (by sl_kernel_rfl) y

def sout1_C_1 : Vec F S1x128 .f32 := VS1_1.read (Elt F) (VS1_1.writes (Elt F) VS1_1.junk (kernelRun1_C c i arg1 harg1 arg2 harg2 arg3 harg3 arg4 harg4 arg5 harg5 hc0 hc1 x0 x1 xs0 xs1).2.2.1)

end

end

def outsA1 (c : Dev nD) (t : Fin cfg1.N) (h0 : t.val = 0) (h1 : ¬t.val = 5) : Vec F S1x1 .f32 × Vec F S1x128 .f32 × Vec F S1x128 .f32 :=
  (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp h1) (iblk1 V c 0 t) (iblk1 V c 1 t),
    sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp h1) (iblk1 V c 0 t) (iblk1 V c 1 t),
    sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (mt (hcond1_1 t).mp h1) (iblk1 V c 0 t) (iblk1 V c 1 t))

def outsB1 (c : Dev nD) (t : Fin cfg1.N) (h0 : ¬t.val = 0) (h1 : ¬t.val = 5) (xs0 xs1 : Vec F S1x128 .f32) : Vec F S1x1 .f32 × Vec F S1x128 .f32 × Vec F S1x128 .f32 :=
  (out1_B_2 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (iblk1 V c 1 t) xs0 xs1,
    sout1_B_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (iblk1 V c 1 t) xs0 xs1,
    sout1_B_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) (mt (hcond1_1 t).mp h1) (iblk1 V c 0 t) (iblk1 V c 1 t) xs0 xs1)

def outsC1 (c : Dev nD) (t : Fin cfg1.N) (h0 : ¬t.val = 0) (h1 : t.val = 5) (xs0 xs1 : Vec F S1x128 .f32) : Vec F S1x1 .f32 × Vec F S1x128 .f32 × Vec F S1x128 .f32 :=
  (out1_C_2 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (iblk1 V c 1 t) xs0 xs1,
    sout1_C_0 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (iblk1 V c 1 t) xs0 xs1,
    sout1_C_1 c (grid1.coords t) (ms1_0 t) (hs1_0 t) (ms1_1 t) (hs1_1 t) (ms1_2 t) (hs1_2 t) scM1_0 (Memref.isWhole_whole _) scM1_1 (Memref.isWhole_whole _) (mt (hcond1_0 t).mp h0) ((hcond1_1 t).mpr h1) (iblk1 V c 0 t) (iblk1 V c 1 t) xs0 xs1)

-- Recursion on the position: each point's case takes the accumulators as the point before left them.
def outsAt1 (c : Dev nD) : (n : ℕ) → n < cfg1.N → Vec F S1x1 .f32 × Vec F S1x128 .f32 × Vec F S1x128 .f32
  | 0, hn => outsA1 V c ⟨0, hn⟩ rfl (show ¬0 = 5 by decide)
  | n + 1, hn =>
    if h1 : n + 1 = 5 then outsC1 V c ⟨n + 1, hn⟩ (Nat.succ_ne_zero n) h1 (outsAt1 c n (Nat.lt_of_succ_lt hn)).2.1 (outsAt1 c n (Nat.lt_of_succ_lt hn)).2.2
    else outsB1 V c ⟨n + 1, hn⟩ (Nat.succ_ne_zero n) h1 (outsAt1 c n (Nat.lt_of_succ_lt hn)).2.1 (outsAt1 c n (Nat.lt_of_succ_lt hn)).2.2

theorem outsAt1_A (c : Dev nD) (t : Fin cfg1.N) (h0 : t.val = 0) (h1 : ¬t.val = 5) :
    outsAt1 V c t.val t.isLt = outsA1 V c t h0 h1 := by
  obtain ⟨_ | n, hn⟩ := t
  exacts [rfl, absurd h0 (Nat.succ_ne_zero n)]

theorem outsAt1_B (c : Dev nD) (t : Fin cfg1.N) (h0 : ¬t.val = 0) (h1 : ¬t.val = 5) :
    outsAt1 V c t.val t.isLt = outsB1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨_ | n, hn⟩ := t
  exacts [absurd rfl h0, (dif_neg h1).trans rfl]

theorem outsAt1_C (c : Dev nD) (t : Fin cfg1.N) (h0 : ¬t.val = 0) (h1 : t.val = 5) :
    outsAt1 V c t.val t.isLt = outsC1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨_ | n, hn⟩ := t
  exacts [absurd rfl h0, (dif_pos h1).trans rfl]

abbrev accInv (c : Dev nD) (a b : Vec F S1x128 .f32) : sProp 𝕄 :=
  iprop(iprop(iprop(owns (c : Thread nD τ) scM1_0 fullShare a ∗ owns (c : Thread nD τ) scM1_1 fullShare b) ∗ rest1 c) ∗ (∃ r, prngReg c r))

def PhiS (c : Dev nD) : (n : ℕ) → n ≤ cfg1.N → sProp 𝕄
  | 0, _ => Pipeline.ΦA spec1 c
  | n + 1, hn => accInv c (outsAt1 V c n hn).2.1 (outsAt1 V c n hn).2.2

theorem PhiS_zero (c : Dev nD) (n : ℕ) (h : n ≤ cfg1.N) (hz : n = 0) : PhiS V c n h = Pipeline.ΦA spec1 c := by
  subst hz; rfl

theorem PhiS_pos (c : Dev nD) (n : ℕ) (h : n ≤ cfg1.N) (hz : n ≠ 0) :
    PhiS V c n h = accInv c (outsAt1 V c (n - 1) (by omega)).2.1 (outsAt1 V c (n - 1) (by omega)).2.2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

-- Under a cover the read-back does not depend on the prior contents.
theorem owns_of_cover {c : Dev nD} {sp sp' κ' s e} (v' : View sig κ' sp' s e) {m : Memref sig .tc sp s e} {L : List (View.Piece (Elt F) s e)}
    (hL : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v'.read (Elt F) (v'.writes (Elt F) v'.junk L)) := by
  iintro ⟨%f, H⟩; unfold owns; iexists _; isplitr; swap; · iexact H
  ipureintro; exact View.read_writes_of_cover _ _ _ _ _ hL

set_option maxHeartbeats 4800000 in
-- The closed forms of the two conditions select the case; its run applies, and the pieces it stores cover their buffers.
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t)) := by
  unfold bodyAt1
  simp only [before1_0, before1_1]
  rw [show (dat1 V c).owesAt () t.succ = (dat1 V c).owesAt () t.castSucc from rfl,
    show (dat1 V c).Φ t.succ = accInv c (outsAt1 V c t.val t.isLt).2.1 (outsAt1 V c t.val t.isLt).2.2 from rfl,
    show (dat1 V c).Φ t.castSucc = PhiS V c t.val (Nat.le_of_lt t.isLt) from rfl,
    show (dat1 V c).leavesExact 0 t = owns (c : Thread nD τ) (ms1_0 t) fullShare (iblk1 V c 0 t) from by
      unfold Dat.leavesExact; rw [liveAt1_0 t]; rfl,
    show (dat1 V c).leavesExact 1 t = owns (c : Thread nD τ) (ms1_1 t) fullShare (iblk1 V c 1 t) from by
      unfold Dat.leavesExact; rw [liveAt1_1 t]; rfl]
  by_cases h1 : t.val = 5
  · have h0 : ¬t.val = 0 := by omega
    rw [show (dat1 V c).leavesExact 2 t = owns (c : Thread nD τ) (ms1_2 t) fullShare (outsAt1 V c t.val t.isLt).1 from by
      unfold Dat.leavesExact; rw [liveAt1_2 t h1]; rfl, outsAt1_C V c t h0 h1, PhiS_pos V c _ _ h0]
    unfold accInv outsC1 out1_C_2 sout1_C_0 sout1_C_1; dsimp only
    iintro ⟨⟨⟨⟨HS0, HS1⟩, Hr⟩, Hg⟩, Ho, ⟨%d0, H0⟩, ⟨%d1, H1⟩, ⟨%d2, H2⟩⟩
    iapply ((kernelRun1_C c (grid1.coords t) _ _ _ _ _ _ _ _ _ _ (mt (hcond1_0 t).mp h0) ((hcond1_1 t).mpr h1) (iblk1 V c 0 t) (iblk1 V c 1 t) _ _).2.2.2 Set.univ _)
    iframe H0 H1 HS0 HS1
    isplitl [H2]; · iexists _; iexact H2
    iintro ⟨H0, H1, H2, HS0, HS1⟩
    ihave HS0 := (owns_of_cover VS1_0 (scover1_C_0 c _ _ _ _ _ _ _ _ _ _ _ _ _ _ _ _ _)) $$ HS0
    ihave HS1 := (owns_of_cover VS1_1 (scover1_C_1 c _ _ _ _ _ _ _ _ _ _ _ _ _ _ _ _ _)) $$ HS1
    ihave H2 := (owns_of_cover VO1_2 (cover1_C_2 c _ _ _ _ _ _ _ _ _ _ _ _ _ _ _ _ _)) $$ H2
    iframe
  · rw [Dat.leavesExact_idle (dat1 V c) 2 t (idleAt1_2 t h1) (noFlush1_2 t h1)]
    by_cases h0 : t.val = 0
    · rw [outsAt1_A V c t h0 h1, PhiS_zero V c _ _ h0, PhiA1_eq]
      unfold accInv outsA1 sout1_A_0 sout1_A_1; dsimp only
      iintro ⟨⟨⟨⟨HS0, HS1⟩, Hr⟩, Hg⟩, Ho, ⟨%d0, H0⟩, ⟨%d1, H1⟩, ⟨%d2, H2⟩⟩
      iapply ((kernelRun1_A c (grid1.coords t) _ _ _ _ _ _ _ _ _ _ ((hcond1_0 t).mpr h0) (mt (hcond1_1 t).mp h1) (iblk1 V c 0 t) (iblk1 V c 1 t)).2.2.2 _ Set.univ _)
      iframe H0 H1 H2 HS0 HS1
      iintro ⟨H0, H1, H2, HS0, HS1⟩
      ihave HS0 := (owns_of_cover VS1_0 (scover1_A_0 c _ _ _ _ _ _ _ _ _ _ _ _ _ _ _)) $$ HS0
      ihave HS1 := (owns_of_cover VS1_1 (scover1_A_1 c _ _ _ _ _ _ _ _ _ _ _ _ _ _ _)) $$ HS1
      iframe HS0 HS1 Hr Hg Ho H0 H1
      iexists _; iexact H2
    · rw [outsAt1_B V c t h0 h1, PhiS_pos V c _ _ h0]
      unfold accInv outsB1 sout1_B_0 sout1_B_1; dsimp only
      iintro ⟨⟨⟨⟨HS0, HS1⟩, Hr⟩, Hg⟩, Ho, ⟨%d0, H0⟩, ⟨%d1, H1⟩, ⟨%d2, H2⟩⟩
      iapply ((kernelRun1_B c (grid1.coords t) _ _ _ _ _ _ _ _ _ _ (mt (hcond1_0 t).mp h0) (mt (hcond1_1 t).mp h1) (iblk1 V c 0 t) (iblk1 V c 1 t) _ _).2.2.2 _ Set.univ _)
      iframe H0 H1 H2 HS0 HS1
      iintro ⟨H0, H1, H2, HS0, HS1⟩
      ihave HS0 := (owns_of_cover VS1_0 (scover1_B_0 c _ _ _ _ _ _ _ _ _ _ _ _ _ _ _ _ _)) $$ HS0
      ihave HS1 := (owns_of_cover VS1_1 (scover1_B_1 c _ _ _ _ _ _ _ _ _ _ _ _ _ _ _ _ _)) $$ HS1
      iframe HS0 HS1 Hr Hg Ho H0 H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

-- The accumulators' contents are forgotten.
theorem hout1 (c : Dev nD) : (dat1 V c).Φ (Fin.last cfg1.N) ⊢ Pipeline.ΦA spec1 c := by
  rw [show (dat1 V c).Φ (Fin.last cfg1.N) = PhiS V c cfg1.N (Nat.le_refl _) from rfl, PhiS_pos V c _ _ (by decide), PhiA1_eq]
  unfold accInv
  iintro ⟨⟨⟨HS0, HS1⟩, Hr⟩, Hg⟩
  iframe Hr Hg
  isplitl [HS0] <;> iexists _ <;> iassumption

end Cert.KernelIdeal.R1

end
-- ==== Proof.FrameAsm.lean ====
import proofs.«429766_j12146167513806_2_alg».proof.Proof.RegionsKI
import proofs.«429766_j12146167513806_2_alg».proof.Proof.R0Body
import proofs.«429766_j12146167513806_2_alg».proof.Proof.R1Body
import Idealize.ShloMosaic.Lib.Pipeline.RegionsLoop
import Idealize.ShloMosaic.Lib.Pipeline.FrameSuffix

noncomputable section

namespace Cert.KernelIdeal.Asm

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

abbrev Ve0 : (c : Dev nD) → (b : Ref sig .tc) → Buf (Elt F) ((c : Thread nD τ).loc b) := fun c b => V32 m c b

def W33 (c : Dev nD) : Valuation τ sig (Elt F) :=
  Pipeline.withArrays spec0 c (V32 m c) fun w => (R0.dat0 (Ve0 m) c).arrAt w cfg0.N

theorem W33_arr (c : Dev nD) (w : Fin cfg0.W) :
    W33 m c (Proc.devRef .tc (Pipeline.arrRef spec0 w)) = (R0.dat0 (Ve0 m) c).arrAt w cfg0.N :=
  Pipeline.withArrays_arr spec0 launch0.win.arr_inj c _ _ w

def outsA : Outs (F := F) := fun _ r c => W33 m c r

abbrev Ve1 : (c : Dev nD) → (b : Ref sig .tc) → Buf (Elt F) ((c : Thread nD τ).loc b) := fun c b => V38 m (outsA m) c b

def W39 (c : Dev nD) : Valuation τ sig (Elt F) :=
  Pipeline.withArrays spec1 c (V38 m (outsA m) c) fun w => (R1.dat1 (Ve1 m) c).arrAt w cfg1.N

theorem W39_arr (c : Dev nD) (w : Fin cfg1.W) :
    W39 m c (Proc.devRef .tc (Pipeline.arrRef spec1 w)) = (R1.dat1 (Ve1 m) c).arrAt w cfg1.N :=
  Pipeline.withArrays_arr spec1 launch1.win.arr_inj c _ _ w

def outs : Outs (F := F) := fun J r c => if J = 33 then W33 m c r else W39 m c r

theorem outs_39 (r : Ref sig .tc) (c : Dev nD) : outs m 39 r c = W39 m c r := if_neg (by decide)

theorem exit_agree (g : Valuation τ sig (Elt F)) (b : Ref sig .tc) :
    ∀ (l : List (Ref sig .tc)) (f : Valuation τ sig (Elt F)), (b ∉ l → f b = g b) →
      l.foldl (fun f r => Function.update f (Proc.devRef .tc r) (g r)) f b = g b
  | [], _, h => h List.not_mem_nil
  | a :: l, f, h => exit_agree g b l _ fun hb => by
    rcases eq_or_ne b a with rfl | e
    · exact Function.update_self ..
    · exact (Function.update_of_ne (StableHlo.devRef_ne_of_ne e) ..).trans (h (List.not_mem_cons_of_ne_of_not_mem e hb))

theorem exit_eq {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Pipeline.arrRef cfg.spec w))
    (l : List (Ref sig .tc)) (hl : ∀ w, (cfg.win w).isOut = false ∨ Pipeline.arrRef cfg.spec w ∈ l) (b : Ref sig .tc) :
    l.foldl (fun f r => Function.update f (Proc.devRef .tc r) (Pipeline.withArrays cfg.spec c V (D.arrAt · cfg.N) r)) V b
      = Pipeline.withArrays cfg.spec c V (D.arrAt · cfg.N) b :=
  exit_agree _ b l V fun hb => by
    by_cases hw : ∃ w, Pipeline.arrRef cfg.spec w = b
    · obtain ⟨w, rfl⟩ := hw
      rw [Pipeline.withArrays_arr _ hinj, D.arrAt_in w ((hl w).resolve_right hb), hA]
    · exact (Pipeline.withArrays_of_ne _ c V _ b fun w e => hw ⟨w, e⟩).symm

def pdats : (p : Fin 2) → (c : Dev nD) → Dat τ (Elt F) Unit ℕ (UR sig nD τ) ℕ (cfgs p) c
  | ⟨0, _⟩ => fun c => R0.dat0 (Ve0 m) c
  | ⟨1, _⟩ => fun c => R1.dat1 (Ve1 m) c

theorem pd : ∀ (p : Fin 2) (c : Dev nD), (∀ t, (pdats m p c).owed t = 0) ∧ (∀ w, (pdats m p c).q w = fullShare)
      ∧ ∀ t, (pdats m p c).recorded t = Set.univ
  | ⟨0, _⟩, _ => ⟨fun _ => rfl, fun _ => rfl, fun _ => rfl⟩
  | ⟨1, _⟩, _ => ⟨fun _ => rfl, fun _ => rfl, fun _ => rfl⟩

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg (p : Fin 2) (lf : Pipeline.LaunchFacts (nD := nD) (τ := τ) cfgs p) (V V' : Dev nD → Valuation τ sig (Elt F))
    (hb : ∀ c, BodyObligation (pdats m p c) defs₀ Variants.none () Set.univ)
    (hA : ∀ c w, (pdats m p c).A w = V c (Pipeline.arrRef (cfgs p).spec w))
    (hi : ∀ c, Pipeline.ΦA (cfgs p).spec c ⊢ (pdats m p c).Φ 0)
    (ho : ∀ c, (pdats m p c).Φ (Fin.last _) ⊢ Pipeline.ΦA (cfgs p).spec c)
    (hV : ∀ c (b : Ref sig .tc), V' c b = Pipeline.withArrays (cfgs p).spec c (V c) ((pdats m p c).arrAt · (cfgs p).N) b) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pd m p c).1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c fun b => V c b
  hentry c := by
    have hs := Pipeline.arrays_of_unscopedBufs (pcfgs (F := F)) adm (pdats m) lf.win lf.arr_whole c
      ((pdats m p c).share_full (pd m p c).2.1) (fun b => V c b) (hA c)
    rw [Pipeline.unscopedBufs_held] at hs
    unfold Pipeline.prefHeld Pipeline.Dat.owesAt Pipeline.owesWithin
    rw [(pd m p c).1, show (Finset.univ : Finset (Fin 0)) = ∅ from rfl, BI.bigSep_empty]
    iintro ⟨⟨Hub, Hp, %W, HO⟩, -⟩
    ihave ⟨Ha, Hrest⟩ := hs $$ Hub
    imodintro
    iframe
    isplitr; · iempintro
    iexists W; isplitr; · ipureintro; exact fun _ _ => Or.inl ((pd m p c).2.2 0 ▸ trivial)
    iexact HO
  hin c := by
    refine .trans ?_ (hi c)
    unfold Pipeline.ΦA
    iintro ⟨Hp, -, Hr⟩
    iframe
  hout c := by
    rw [Pipeline.ownSems0_none]
    refine (ho c).trans ?_
    unfold Pipeline.ΦA
    iintro ⟨Hr, Hp⟩
    iframe
    iempintro
  hexit c := by
    have hj := Pipeline.unscopedBufs_of_arrays (pcfgs (F := F)) adm
      lf.win lf.arr_whole c (pdats m) ((pdats m p c).share_full (pd m p c).2.1)
      (fun b => V c b) (fun b => V' c b) ((pdats m p c).arrAt · (cfgs p).N)
      (fun w => ((hV c _).trans (Pipeline.withArrays_arr _ lf.win.arr_inj c _ _ w)).symm)
      (fun b hb => (hV c b).trans (Pipeline.withArrays_of_ne _ c _ _ b fun w e => hb (Finset.mem_image.2 ⟨w, Finset.mem_univ _, e⟩)))
    rw [Pipeline.unscopedBufs_held] at hj
    unfold Pipeline.Dat.owesAt Pipeline.owesWithin R
    rw [(pd m p c).1]
    iintro ⟨Ha, ⟨%W, -, HO⟩, HY, Hrest⟩
    imodintro
    iframe
    isplitl [Ha Hrest]
    · iapply hj; iframe
    iexists W; iexact HO

def reg0 := reg m 0 launch0 (V32 m) (V33 m (outs m)) (R0.body_obligation0 (Ve0 m)) (fun _ _ => rfl) (fun _ => .rfl) (fun _ => .rfl)
  fun c => exit_eq (R0.dat0 (Ve0 m) c) (V32 m c) launch0.win.arr_inj (fun _ => rfl)
    [main_v53_0, main_v53_1, main_v53_2, main_v53_3, main_v53_4, main_v53_5] (by decide)

def reg1 := reg m 1 launch1 (V38 m (outs m)) (V39 m (outs m)) (R1.body_obligation1 (Ve1 m)) (fun _ _ => rfl) (R1.hin1 (Ve1 m)) (R1.hout1 (Ve1 m))
  fun c => exit_eq (R1.dat1 (Ve1 m) c) (V38 m (outs m) c) launch1.win.arr_inj (fun _ => rfl) [main_v95] (by decide)

set_option backward.isDefEq.respectTransparency.types false in
theorem run_all (ρ : Dev nD → PrngReg) : θ_run defs (onTc (τ := τ) (main (F := F))) ⟨m, fun _ => 0, ρ⟩ (fun r => ∀ c : Dev nD,
      r.2.mem ((c.tc : Thread nD τ).loc main_v96) = V40 m (outs m) c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ Variants.none L lv m ρ main
    (segs m (outs m) Variants.none L lv E () (pdats m) (reg0 m) (reg1 m))
    (fun c Q => Entails.of_eq (congrArg (wp _ _ _ · Q) ((Pipeline.Seg.run_eq_chain _).trans (main_chain c).symm)))
    (fun c => (by decide : [(0 : Fin 2), 1].Nodup)) 0 (fun _ _ => rfl) (fun _ => BI.emp)
    (initOf (Pipeline.cells cfgs cellOf_inj) (Pipeline.launchToks cfgs cellOf_inj))
    (by rw [BI.bigSep_emp_const]; exact sep_emp.2.trans fupd_intro)
    (T₀ := fun c => iprop(StableHlo.held (c : Thread nD τ) (Pipeline.ucRefs τ sig) (V0 m c) ∗ E 0 c))
    (Tₙ := fun c => StableHlo.held (c : Thread nD τ) (Pipeline.ucRefs τ sig) (V40 m (outs m) c))
    (hch := fun c => by
      repeat' first | exact .rfl | apply And.intro
      exact sep_mono .rfl (by iintro ⟨-, HO⟩; iexact HO))
    (hinit := ?_) (hfin := fun c s' => ?_) (hQ := fun _ h => h)
  · refine Pipeline.initEach L lv fun c => ?_
    rw [← Pipeline.unscopedBufs_held c (V0 m c)]
    iintro ⟨⟨Hh, -, HO, -, Hp, -⟩, -⟩
    imodintro
    iframe
    isplitl [Hp]; · iexists _; iexact Hp
    iexists ∅; iexact HO
  · refine (pointsTo_read_all _ (fun b => ((c : Thread nD τ).1, b)) (V40 m (outs m) c) s').trans
      ((sep_mono (pure_mono fun h => ?_) .rfl).trans fupd_intro)
    have hh := fun (r : Ref sig .tc) hr x => @Eq.trans _ _ _ x (h _ (mem_uc r hr))
    exact ⟨hh _ (by decide) _ rfl,
      hh _ (by decide) _ (V40_main_arg0 m _ c),
      hh _ (by decide) _ (V40_main_arg1 m _ c),
      hh _ (by decide) _ (V40_main_arg2 m _ c),
      hh _ (by decide) _ (V40_main_arg3 m _ c),
      hh _ (by decide) _ (V40_main_arg4 m _ c),
      hh _ (by decide) _ (V40_main_arg5 m _ c),
      hh _ (by decide) _ (V40_main_arg6 m _ c),
      hh _ (by decide) _ (V40_main_arg7 m _ c),
      hh _ (by decide) _ (V40_main_arg8 m _ c),
      hh _ (by decide) _ (V40_main_arg9 m _ c),
      hh _ (by decide) _ (V40_main_arg10 m _ c),
      hh _ (by decide) _ (V40_main_arg11 m _ c)⟩

-- The frame is the run with the result buffer forgotten.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_all m ρ)

end Cert.KernelIdeal.Asm

end
-- ==== Proof.RefRun.lean ====
import proofs.«429766_j12146167513806_2_alg».proof.Proof.RefRunDefs
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

-- The list is read in three stretches, cut where every buffer still read later holds a named intermediate or an argument.
def sA : List (HloOp τ sig (Elt F)) := ops.take 91
def sB : List (HloOp τ sig (Elt F)) := (ops.drop 91).take 71
def sC : List (HloOp τ sig (Elt F)) := (ops.drop 91).drop 71

theorem ops_split : (ops : List (HloOp τ sig (Elt F))) = sA ++ (sB ++ sC) := by
  rw [sA, sB, sC, List.take_append_drop, List.take_append_drop]

-- Every operation writes one buffer, and never one of the first twelve, which are the arguments.
set_option maxRecDepth 8192 in
theorem ops_out : (ops : List (HloOp τ sig (Elt F))).Forall fun op =>
    ∃ y : Ref sig .tc, op.writes = {Proc.devRef .tc y} ∧ 12 ≤ y.idx.val := by
  simp only [ops, List.forall_cons]
  and_intros <;> first | exact ⟨_, rfl, by decide⟩ | trivial

variable (V0 : Valuation τ sig (Elt F))

theorem kept {a : Ref sig .tc} (ha : a.idx.val < 12) : after ops V0 (Proc.devRef .tc a) = V0 (Proc.devRef .tc a) :=
  after_of_forall_not_mem _ _ fun op hop hm => by
    obtain ⟨y, hy, h12⟩ := List.forall_iff_forall_mem.1 ops_out op hop
    rw [hy, Finset.mem_singleton] at hm
    rw [Proc.devRef_injective _ hm] at ha
    omega

set_option maxRecDepth 8192 in
set_option maxHeartbeats 1600000 in
theorem stageA : after sA V0 (Proc.devRef .tc main_v5) = res_main_v5 V0
    ∧ after sA V0 (Proc.devRef .tc main_v7) = res_main_v7 V0
    ∧ after sA V0 (Proc.devRef .tc main_v9) = res_main_v9 V0
    ∧ after sA V0 (Proc.devRef .tc main_v11) = res_main_v11 V0
    ∧ after sA V0 (Proc.devRef .tc main_v45) = res_main_v45 V0
    ∧ after sA V0 (Proc.devRef .tc main_v63) = res_main_v63 V0
    ∧ after sA V0 (Proc.devRef .tc main_v67) = res_main_v67 V0
    ∧ after sA V0 (Proc.devRef .tc main_v69) = res_main_v69 V0
    ∧ after sA V0 (Proc.devRef .tc main_v73) = res_main_v73 V0
    ∧ after sA V0 (Proc.devRef .tc main_v75) = res_main_v75 V0
    ∧ after sA V0 (Proc.devRef .tc main_v83) = res_main_v83 V0
    ∧ after sA V0 (Proc.devRef .tc main_arg8) = V0 (Proc.devRef .tc main_arg8)
    ∧ after sA V0 (Proc.devRef .tc main_arg9) = V0 (Proc.devRef .tc main_arg9)
    ∧ after sA V0 (Proc.devRef .tc main_arg10) = V0 (Proc.devRef .tc main_arg10) := by
  simp only [sA, List.take_succ_cons, List.take_zero]
  after_results_simp
  refine ⟨?_, ?_, ?_, ?_, ?_, ?_, ?_, ?_, ?_, ?_, ?_, ?_, ?_, ?_⟩ <;> first | rfl | trivial

-- The named terms are restated over what the first stretch leaves, so that the second is read from arbitrary contents.
set_option maxRecDepth 8192 in
set_option maxHeartbeats 400000 in
theorem stageB : after sB (after sA V0) (Proc.devRef .tc main_v143) = res_main_v143 V0
    ∧ after sB (after sA V0) (Proc.devRef .tc main_v144) = res_main_v144 V0 := by
  obtain ⟨h5, h7, h9, h11, h45, h63, h67, h69, h73, h75, h83, a8, a9, a10⟩ := stageA V0
  unfold res_main_v143 res_main_v144 res_main_v142 res_main_v95 res_main_v96
  rw [← h5, ← h7, ← h9, ← h11, ← h45, ← h63, ← h67, ← h69, ← h73, ← h75, ← h83, ← a8, ← a9, ← a10]
  generalize after sA V0 = W
  simp only [sB, List.drop_succ_cons, List.drop_zero, List.take_succ_cons, List.take_zero]
  constructor <;> after_results_simp <;> rfl

set_option maxRecDepth 8192 in
theorem stageC : after sC V0 (Proc.devRef .tc main_v150)
    = Host.divf (Host.reduceAdd (mulf (V0 (Proc.devRef .tc main_v143)) (V0 (Proc.devRef .tc main_v143))) (constant S_ .f32 0x00000000#32) reducesTo_S1000000x3_S_d0_1 h_S_) (maximumf (Host.reduceAdd (mulf (V0 (Proc.devRef .tc main_v144)) (V0 (Proc.devRef .tc main_v144))) (constant S_ .f32 0x00000000#32) reducesTo_S1000000x3_S_d0_1 h_S_) (constant S_ .f32 0x0DA24260#32)) := by
  simp only [sC, List.drop_succ_cons, List.drop_zero]
  after_results_simp <;> rfl

set_option maxRecDepth 8192 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v150) = Host.divf (Host.reduceAdd (mulf (res_main_v143 (launchContents m c)) (res_main_v143 (launchContents m c))) (constant S_ .f32 0x00000000#32) reducesTo_S1000000x3_S_d0_1 h_S_) (maximumf (Host.reduceAdd (mulf (res_main_v144 (launchContents m c)) (res_main_v144 (launchContents m c))) (constant S_ .f32 0x00000000#32) reducesTo_S1000000x3_S_d0_1 h_S_) (constant S_ .f32 0x0DA24260#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      refine ⟨(h c _).trans ?_, ?_, ?_, ?_, ?_, ?_, ?_, ?_, ?_, ?_, ?_, ?_, ?_⟩
      · rw [ops_split, after_append, after_append, stageC, (stageB _).1, (stageB _).2]
      all_goals exact (h c _).trans (kept _ (by decide)))
    (run_seq scopedRefs_eq scopedSems_eq defs main (fun _ => ops) main_eq (fun _ => ops_sub) m ρ)

end Cert.ReferenceIdeal.Value

end
-- ==== Proof.RefFrame.lean ====
import proofs.«429766_j12146167513806_2_alg».proof.Defs
import proofs.«429766_j12146167513806_2_alg».proof.Proof.Gen.Pre_finite_inputs
import proofs.«429766_j12146167513806_2_alg».proof.Proof.RefRun

noncomputable section

open Idealize.ShloMosaic Idealize.SL.Sem

namespace Cert.Proof.RefSide

theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.R1Pay.lean ====
import proofs.«429766_j12146167513806_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.R1V

open Cert.KernelIdeal Cert.KernelIdeal.Gen Idealize.ShloMosaic Idealize.ShloMosaic.ValueIdx
open scoped BigOperators

theorem unit_idx (j : S1x1.Idx) : j = ix2 (0 : Fin 1) (0 : Fin 1) :=
  Shape.idx_ext₂ (Nat.lt_one_iff.mp (idx2_lt0 j)) (Nat.lt_one_iff.mp (idx2_lt1 j))

theorem pay1_apply (l : Fin 128) : (k1_pay1 (F := Ideal)) (ix2 (0 : Fin 1) l) = 0 := by
  unfold k1_pay1
  rw [shapeCast_self]
  exact Ideal.ofBits_zero_f32

theorem pay3_apply (x : Vec Ideal S4096x128 .f32) (xs : Vec Ideal S1x128 .f32) (l : Fin 128) :
    k1_pay3 x xs (ix2 (0 : Fin 1) l) = xs (ix2 (0 : Fin 1) l) + ∑ r : Fin 4096, x (ix2 r l) * x (ix2 r l) := by
  unfold k1_pay3
  rw [shapeCast_self, shapeCast_self]
  refine congrArg (xs (ix2 (0 : Fin 1) l) + ·) ((shapeCast_a_1a_apply _ _ (0 : Fin 1) l).trans
    ((Ideal.multiReduction_add_single _ _ _ _ _ _).trans ?_))
  exact Finset.sum_congr rfl fun r _ => congrArg (fun j => x j * x j) (Shape.idx_ext₂ rfl rfl)

theorem pay5_apply (a b : Vec Ideal S1x128 .f32) :
    k1_pay5 a b (ix2 (0 : Fin 1) (0 : Fin 1))
      = Ideal.div (∑ l : Fin 128, a (ix2 (0 : Fin 1) l))
          (max (∑ l : Fin 128, b (ix2 (0 : Fin 1) l)) (Ideal.ofBits .f32 0x0DA24260#32)) := by
  unfold k1_pay5
  refine congrArg₂ Ideal.div ?_ (congrArg₂ max ?_ rfl) <;>
    exact (shapeCast_a_1a_apply _ _ (0 : Fin 1) (0 : Fin 1)).trans ((Ideal.multiReduction_add_single _ _ _ _ _ _).trans
      (Finset.sum_congr rfl fun l _ => congrArg _ (Shape.idx_ext₂ rfl rfl)))

end Cert.KernelIdeal.R1V

end
-- ==== Proof.Spec.lean ====
import Idealize.ShloMosaic.PureOps.Ideal
import Idealize.ShloMosaic.Lib.ValueIdx

noncomputable section

open scoped BigOperators
open Idealize.ShloMosaic Idealize.ShloMosaic.ValueIdx

namespace Cert.Spec

abbrev one : EReal := Ideal.ofBits .f32 0x3F800000#32
abbrev two : EReal := Ideal.ofBits .f32 0x40000000#32
abbrev four : EReal := Ideal.ofBits .f32 0x40800000#32
abbrev six : EReal := Ideal.ofBits .f32 0x40C00000#32
abbrev twelve : EReal := Ideal.ofBits .f32 0x41400000#32
abbrev tiny : EReal := Ideal.ofBits .f32 0x0DA24260#32

def elemForce (k : Fin 6) (c s L E A I a0 a1 a2 b0 b1 b2 : EReal) : EReal :=
  let EA := E * A
  let EI := E * I
  let uA := c * a0 + s * a1
  let wA := (-s) * a0 + c * a1
  let thA := -a2
  let uB := c * b0 + s * b1
  let wB := (-s) * b0 + c * b1
  let thB := -b2
  let eal := Ideal.div EA L * one
  let eil := Ideal.div EI L
  let eil2 := Ideal.div EI (L * L)
  let eil3 := Ideal.div EI (L * L * L)
  let dw := wA - wB
  let f0 := eal * (uA - uB)
  let f1 := twelve * eil3 * dw + six * eil2 * (thA + thB)
  let f2 := six * eil2 * dw + four * eil * thA + two * eil * thB
  let f3 := -f0
  let f4 := -f1
  let f5 := six * eil2 * dw + two * eil * thA + four * eil * thB
  match k with
  | ⟨0, _⟩ => c * f0 - s * f1
  | ⟨1, _⟩ => s * f0 + c * f1
  | ⟨2, _⟩ => -f2
  | ⟨3, _⟩ => c * f3 - s * f4
  | ⟨4, _⟩ => s * f3 + c * f4
  | ⟨_ + 5, _⟩ => -f5

abbrev SN3 : Shape := ⟨2, ![1000000, 3]⟩
abbrev SN1 : Shape := ⟨2, ![1000000, 1]⟩
abbrev S1 : Shape := ⟨1, ![1]⟩
abbrev SE : Shape := ⟨1, ![2000000]⟩
abbrev SE3 : Shape := ⟨2, ![2000000, 3]⟩
abbrev SE2 : Shape := ⟨2, ![2000000, 2]⟩
abbrev S2E3 : Shape := ⟨2, ![4000000, 3]⟩

def uphys (pred : SN3.Idx → EReal) (uc th : S1.Idx → EReal) (n : Fin 1000000) (k : Fin 3) : EReal :=
  pred (ix2 n k) * (if k.val < 2 then uc (ix1 (0 : Fin 1)) else th (ix1 (0 : Fin 1)))

def node (conn : IVec SE2 32) (e : Fin 2000000) (j : Fin 2) : Fin 1000000 :=
  ⟨min (conn (ix2 e j)).toInt.toNat 999999, by omega⟩

def force (pred : SN3.Idx → EReal) (uc th : S1.Idx → EReal) (len pE pA pI : SE.Idx → EReal) (dirs : SE3.Idx → EReal)
    (conn : IVec SE2 32) (k : Fin 6) (e : Fin 2000000) : EReal :=
  elemForce k (dirs (ix2 e (0 : Fin 3))) (dirs (ix2 e (2 : Fin 3))) (len (ix1 e)) (pE (ix1 e)) (pA (ix1 e)) (pI (ix1 e))
    (uphys pred uc th (node conn e 0) 0) (uphys pred uc th (node conn e 0) 1) (uphys pred uc th (node conn e 0) 2)
    (uphys pred uc th (node conn e 1) 0) (uphys pred uc th (node conn e 1) 1) (uphys pred uc th (node conn e 1) 2)

def updates (pred : SN3.Idx → EReal) (uc th : S1.Idx → EReal) (len pE pA pI : SE.Idx → EReal) (dirs : SE3.Idx → EReal)
    (conn : IVec SE2 32) : S2E3.Idx → EReal := fun y =>
  if h : (y 0).val < 2000000 then force pred uc th len pE pA pI dirs conn ⟨(y 1).val, by have := (y 1).isLt; simp only [Matrix.cons_val_one, Matrix.cons_val_zero] at this; omega⟩ ⟨(y 0).val, h⟩
  else force pred uc th len pE pA pI dirs conn ⟨(y 1).val + 3, by have := (y 1).isLt; simp only [Matrix.cons_val_one, Matrix.cons_val_zero] at this; omega⟩
    ⟨(y 0).val - 2000000, by have := (y 0).isLt; simp only [Matrix.cons_val_zero] at this; omega⟩

def lossOf (R Fm : SN3.Idx → EReal) : EReal :=
  Ideal.div (∑ i : SN3.Idx, R i * R i) (max (∑ i : SN3.Idx, Fm i * Fm i) tiny)

end Cert.Spec

end
-- ==== Proof.R1Value.lean ====
import proofs.«429766_j12146167513806_2_alg».proof.Proof.R1Body
import proofs.«429766_j12146167513806_2_alg».proof.Proof.R1Pay
import proofs.«429766_j12146167513806_2_alg».proof.Proof.Spec
import Idealize.ShloMosaic.Lib.ValueIdx
import Idealize.ShloMosaic.Lib.Pipeline.Value

noncomputable section

namespace Cert.KernelIdeal.R1V

open Cert.KernelIdeal Cert.KernelIdeal.Gen Cert.KernelIdeal.R1 Idealize.ShloMosaic.ValueIdx
open Idealize.ShloMosaic Idealize.ShloMosaic.TcCoe Idealize.ShloMosaic.Tactic
open scoped BigOperators

section Pieces

variable {F : FTy → Type} [FloatOps F] (c : Dev nD) (i : grid1.Coords)
  (arg1 : Memref sig .tc .vmem S4096x128 .f32) (harg1 : arg1.IsWhole) (arg2 : Memref sig .tc .vmem S4096x128 .f32) (harg2 : arg2.IsWhole)
  (arg3 : Memref sig .tc .vmem S1x1 .f32) (harg3 : arg3.IsWhole) (arg4 : Memref sig .tc .vmem S1x128 .f32) (harg4 : arg4.IsWhole)
  (arg5 : Memref sig .tc .vmem S1x128 .f32) (harg5 : arg5.IsWhole) (x0 x1 : Vec F S4096x128 .f32) (xs0 xs1 : Vec F S1x128 .f32)

theorem hz : (![0, 0] : Fin 2 → Nat) = fun _ => 0 := funext fun a => by fin_cases a <;> rfl

theorem rd (S : Shape) {m : Memref sig .tc .vmem S .f32} (h : m.IsWhole) (X : Vec F S .f32) {off : Fin S.rank → Nat}
    (ho : off = fun _ => 0) (inb : ∀ a, off a + S.size a ≤ S.size a) :
    m.view.readAt (Elt F) (Rect.unit off S.size inb).toLoadRect (h.unread X) = X := by
  rw [View.readAt_eq_ld, h.read_unread, View.ld_unit_zero ho]

-- the last store covers the whole block, so the block reads its payload
theorem wr (S : Shape) {sp : Space} (v : View sig .tc sp S .f32) (f : v.ty.Contents (Elt F)) {off : Fin S.rank → Nat}
    (ho : off = fun _ => 0) (inb : ∀ a, off a + S.size a ≤ S.size a) (w : S.Idx → Elt F .f32) (L : List (View.Piece (Elt F) S .f32)) :
    v.read (Elt F) (v.writes (Elt F) f (⟨Rect.unit off S.size inb, w⟩ :: L)) = w :=
  (View.read_writes_eq_canon _ _ _ fun y => ⟨_, List.mem_cons_self, View.mem_set_unit_zero ho inb y⟩).trans
    (View.canon_cons_unit_zero ho inb w L)

theorem soutA0_eq (hc0 : cond1_0 i) (hc1 : ¬cond1_1 i) :
    sout1_A_0 c i arg1 harg1 arg2 harg2 arg3 harg3 arg4 harg4 arg5 harg5 hc0 hc1 x0 x1 = k1_pay3 x0 k1_pay1 := by
  dsimp only [sout1_A_0, kernelRun1_A]
  sl_unfold_words
  rw [wr S1x128 _ _ hz, View.readCov_unit_zero (S := S1x128) _ hz, rd S4096x128 harg1 _ hz]

theorem soutA1_eq (hc0 : cond1_0 i) (hc1 : ¬cond1_1 i) :
    sout1_A_1 c i arg1 harg1 arg2 harg2 arg3 harg3 arg4 harg4 arg5 harg5 hc0 hc1 x0 x1 = k1_pay3 x1 k1_pay1 := by
  dsimp only [sout1_A_1, kernelRun1_A]
  sl_unfold_words
  rw [wr S1x128 _ _ hz, View.readCov_unit_zero (S := S1x128) _ hz, rd S4096x128 harg2 _ hz]
  rfl

theorem soutB0_eq (hc0 : ¬cond1_0 i) (hc1 : ¬cond1_1 i) :
    sout1_B_0 c i arg1 harg1 arg2 harg2 arg3 harg3 arg4 harg4 arg5 harg5 hc0 hc1 x0 x1 xs0 xs1 = k1_pay3 x0 xs0 := by
  dsimp only [sout1_B_0, kernelRun1_B]
  rw [wr S1x128 _ _ hz, rd S4096x128 harg1 _ hz, rd S1x128 harg4 _ hz]

theorem soutB1_eq (hc0 : ¬cond1_0 i) (hc1 : ¬cond1_1 i) :
    sout1_B_1 c i arg1 harg1 arg2 harg2 arg3 harg3 arg4 harg4 arg5 harg5 hc0 hc1 x0 x1 xs0 xs1 = k1_pay3 x1 xs1 := by
  dsimp only [sout1_B_1, kernelRun1_B]
  rw [wr S1x128 _ _ hz, rd S4096x128 harg2 _ hz, rd S1x128 harg5 _ hz]
  rfl

theorem soutC0_eq (hc0 : ¬cond1_0 i) (hc1 : cond1_1 i) :
    sout1_C_0 c i arg1 harg1 arg2 harg2 arg3 harg3 arg4 harg4 arg5 harg5 hc0 hc1 x0 x1 xs0 xs1 = k1_pay3 x0 xs0 := by
  dsimp only [sout1_C_0, kernelRun1_C]
  sl_unfold_words
  rw [wr S1x128 _ _ hz, rd S4096x128 harg1 _ hz, rd S1x128 harg4 _ hz]

theorem soutC1_eq (hc0 : ¬cond1_0 i) (hc1 : cond1_1 i) :
    sout1_C_1 c i arg1 harg1 arg2 harg2 arg3 harg3 arg4 harg4 arg5 harg5 hc0 hc1 x0 x1 xs0 xs1 = k1_pay3 x1 xs1 := by
  dsimp only [sout1_C_1, kernelRun1_C]
  sl_unfold_words
  rw [wr S1x128 _ _ hz, rd S4096x128 harg2 _ hz, rd S1x128 harg5 _ hz]
  rfl

theorem outC2_eq (hc0 : ¬cond1_0 i) (hc1 : cond1_1 i) :
    out1_C_2 c i arg1 harg1 arg2 harg2 arg3 harg3 arg4 harg4 arg5 harg5 hc0 hc1 x0 x1 xs0 xs1 = k1_pay5 (k1_pay3 x0 xs0) (k1_pay3 x1 xs1) := by
  dsimp only [out1_C_2, kernelRun1_C]
  sl_unfold_words
  rw [wr S1x1 _ _ hz, View.readCov_unit_zero (S := S1x128) _ hz, View.readCov_unit_zero (S := S1x128) _ hz,
    rd S4096x128 harg1 _ hz, rd S4096x128 harg2 _ hz, rd S1x128 harg4 _ hz, rd S1x128 harg5 _ hz]
  rfl

end Pieces

def laneSq (X : S24576x128.Idx → EReal) (l : Fin 128) (f : ℕ) : EReal :=
  if h : f < 24576 then X (ix2 ⟨f, h⟩ l) * X (ix2 ⟨f, h⟩ l) else 0

-- every lane over all its rows is the whole array
theorem lane_total (X : S24576x128.Idx → EReal) :
    ∑ l : Fin 128, ∑ f ∈ Finset.range 24576, laneSq X l f = ∑ j, X j * X j :=
  (Finset.sum_congr rfl fun l _ => (Fin.sum_univ_eq_sum_range (laneSq X l) 24576).symm.trans
    (Finset.sum_congr rfl fun p _ => dif_pos p.isLt)).trans (Finset.sum_comm.trans (sum_idx2 fun j => X j * X j).symm)

-- one more block of 4096 rows extends a lane's partial sum of squares
theorem step {X : S24576x128.Idx → EReal} {x : Vec Ideal S4096x128 .f32} {xs : Vec Ideal S1x128 .f32} (t : Fin cfg1.N)
    (l : Fin 128) (hx : ∀ (r : Fin 4096) (k : Fin 24576), k.val = 4096 * t.val + r.val → x (ix2 r l) = X (ix2 k l))
    (hxs : xs (ix2 (0 : Fin 1) l) = ∑ f ∈ Finset.range (4096 * t.val), laneSq X l f) :
    k1_pay3 x xs (ix2 (0 : Fin 1) l) = ∑ f ∈ Finset.range (4096 * (t.val + 1)), laneSq X l f := by
  rw [pay3_apply, hxs, Nat.mul_succ, Finset.sum_range_add]
  refine congrArg _ ((Finset.sum_congr rfl fun r _ => ?_).trans
    (Fin.sum_univ_eq_sum_range (fun r => laneSq X l (4096 * t.val + r)) 4096))
  have hlt : 4096 * t.val + r.val < 24576 := by have := t.isLt.trans_eq N_1; omega
  rw [laneSq, dif_pos hlt, hx r ⟨_, hlt⟩ rfl]

variable (V : (c : Dev nD) → (b : Ref sig .tc) → Buf (Elt Ideal) ((c : Thread nD τ).loc b))

theorem index1 : ∀ t : Fin grid1.N,
    (win1_0.index t 0 = t.val ∧ win1_0.index t 1 = 0) ∧ win1_1.index t 0 = t.val ∧ win1_1.index t 1 = 0 := by decide +kernel

theorem xblk0_apply (c : Dev nD) (t : Fin cfg1.N) (l : Fin 128) (r : Fin 4096) (k : Fin 24576) (hk : k.val = 4096 * t.val + r.val) :
    iblk1 V c 0 t (ix2 r l) = (V c main_v93 : S24576x128.Idx → EReal) (ix2 k l) :=
  (View.read_apply ..).trans (congrArg (V c main_v93 : S24576x128.Idx → EReal) (Shape.idx_ext₂
    (by show win1_0.index t 0 * 4096 + 1 * r.val = k.val; rw [(index1 t).1.1, hk]; omega)
    (by show win1_0.index t 1 * 128 + 1 * l.val = l.val; rw [(index1 t).1.2]; omega)))

theorem xblk1_apply (c : Dev nD) (t : Fin cfg1.N) (l : Fin 128) (r : Fin 4096) (k : Fin 24576) (hk : k.val = 4096 * t.val + r.val) :
    iblk1 V c 1 t (ix2 r l) = (V c main_v94 : S24576x128.Idx → EReal) (ix2 k l) :=
  (View.read_apply ..).trans (congrArg (V c main_v94 : S24576x128.Idx → EReal) (Shape.idx_ext₂
    (by show win1_1.index t 0 * 4096 + 1 * r.val = k.val; rw [(index1 t).2.1, hk]; omega)
    (by show win1_1.index t 1 * 128 + 1 * l.val = l.val; rw [(index1 t).2.2]; omega)))

-- after point n each lane of the two accumulators holds the squares of its rows below 4096 (n + 1)
theorem acc_eq (c : Dev nD) : ∀ (n : ℕ) (hn : n < cfg1.N) (l : Fin 128),
    (outsAt1 V c n hn).2.1 (ix2 (0 : Fin 1) l) = ∑ f ∈ Finset.range (4096 * (n + 1)), laneSq (V c main_v93) l f ∧
    (outsAt1 V c n hn).2.2 (ix2 (0 : Fin 1) l) = ∑ f ∈ Finset.range (4096 * (n + 1)), laneSq (V c main_v94) l f
  | 0, hn, l => by
    rw [outsAt1_A V c ⟨0, hn⟩ rfl (by decide : (0 : ℕ) ≠ 5)]
    dsimp only [outsA1]
    rw [soutA0_eq, soutA1_eq]
    exact ⟨step ⟨0, hn⟩ l (xblk0_apply V c _ l) (pay1_apply l), step ⟨0, hn⟩ l (xblk1_apply V c _ l) (pay1_apply l)⟩
  | n + 1, hn, l => by
    obtain ⟨h0, h1⟩ := acc_eq c n (Nat.lt_of_succ_lt hn) l
    have s := And.intro (step ⟨n + 1, hn⟩ l (xblk0_apply V c _ l) h0) (step ⟨n + 1, hn⟩ l (xblk1_apply V c _ l) h1)
    by_cases h5 : n + 1 = 5
    · rw [outsAt1_C V c ⟨n + 1, hn⟩ (Nat.succ_ne_zero n) h5]
      dsimp only [outsC1]
      rw [soutC0_eq, soutC1_eq]
      exact s
    · rw [outsAt1_B V c ⟨n + 1, hn⟩ (Nat.succ_ne_zero n) h5]
      dsimp only [outsB1]
      rw [soutB0_eq, soutB1_eq]
      exact s

def sumSq (X : S24576x128.Idx → EReal) : EReal := ∑ j, X j * X j

abbrev quot (c : Dev nD) : EReal := Ideal.div (sumSq (V c main_v93)) (max (sumSq (V c main_v94)) Cert.Spec.tiny)

theorem out_value (c : Dev nD) (t : Fin cfg1.N) (h5 : t.val = 5) : (outsAt1 V c t.val t.isLt).1 = fun _ => quot V c := by
  have e : (outsAt1 V c t.val t.isLt).1 = k1_pay5 (outsAt1 V c t.val t.isLt).2.1 (outsAt1 V c t.val t.isLt).2.2 := by
    rw [outsAt1_C V c t (by omega) h5]
    dsimp only [outsC1]
    rw [outC2_eq, soutC0_eq, soutC1_eq]
  funext j
  rw [unit_idx j, e, pay5_apply]
  refine congrArg₂ Ideal.div ?_ (congrArg₂ max ?_ rfl)
  · exact (Finset.sum_congr rfl fun l _ => (acc_eq V c t.val t.isLt l).1.trans (by rw [h5])).trans (lane_total _)
  · exact (Finset.sum_congr rfl fun l _ => (acc_eq V c t.val t.isLt l).2.trans (by rw [h5])).trans (lane_total _)

theorem flushed_eq (c : Dev nD) (t : Fin cfg1.N) (hf : (cfg1.win 2).flush t = true) :
    (dat1 (F := Ideal) V c).flushed 2 t = ((cfg1.win 2).blk t).view.read (Elt Ideal) (fun _ => quot V c) := by
  have h5 : t.val = 5 := by have := (flush1_2 t).mp hf; have := t.isLt.trans_eq N_1; omega
  show (cfg1.win 2).cut (grid1.coords t) ((dat1 (F := Ideal) V c).after 2 t) = _
  rw [after1_2, out_value V c t h5]
  generalize quot V c = q
  funext x
  rw [View.read_apply]
  rfl

theorem final_out (c : Dev nD) : (dat1 (F := Ideal) V c).arrAt 2 cfg1.N = fun _ => quot V c :=
  (dat1 (F := Ideal) V c).arrAt_eq_of_cover 2 (fun _ => quot V c) (flushed_eq V c) fun i =>
    ⟨t1_5, (flush1_2 t1_5).mpr rfl, by
      show i ∈ ((View.whole main_v95).slice (win1_2.rect t1_5)).set
      rw [View.set_slice_whole, Rect.mem_set_unit]
      have h : ∀ a, win1_2.index t1_5 a * win1_2.size a = 0 ∧
          main_v95.ty.shape.size a = win1_2.index t1_5 a * win1_2.size a + win1_2.xsize (grid1.coords t1_5) a := by decide +kernel
      exact fun a => ⟨(h a).1.le.trans (Nat.zero_le _), (i a).isLt.trans_eq (h a).2⟩⟩

end Cert.KernelIdeal.R1V

end
-- ==== Proof.KArgs.lean ====
import proofs.«429766_j12146167513806_2_alg».proof.Proof.RegionsKI
import proofs.«429766_j12146167513806_2_alg».proof.Proof.Spec

noncomputable section

open Idealize.ShloMosaic Idealize.ShloMosaic.TcCoe Idealize.SL.Sem

namespace Cert.KernelIdeal.KV

open Cert.KernelIdeal Cert.KernelIdeal.Gen

variable (m : (ℓ : Loc nD τ sig) → Buf (Elt Ideal) ℓ) (c : Dev nD)

abbrev pred : Cert.Spec.SN3.Idx → EReal := m ((c : Thread nD τ).loc main_arg0)

abbrev uc : Cert.Spec.S1.Idx → EReal := m ((c : Thread nD τ).loc main_arg1)
abbrev th : Cert.Spec.S1.Idx → EReal := m ((c : Thread nD τ).loc main_arg2)

abbrev len : Cert.Spec.SE.Idx → EReal := m ((c : Thread nD τ).loc main_arg3)
abbrev pE : Cert.Spec.SE.Idx → EReal := m ((c : Thread nD τ).loc main_arg4)
abbrev pA : Cert.Spec.SE.Idx → EReal := m ((c : Thread nD τ).loc main_arg5)
abbrev pI : Cert.Spec.SE.Idx → EReal := m ((c : Thread nD τ).loc main_arg6)

abbrev dirs : Cert.Spec.SE3.Idx → EReal := m ((c : Thread nD τ).loc main_arg7)

abbrev fext : Cert.Spec.SN3.Idx → EReal := m ((c : Thread nD τ).loc main_arg8)
abbrev bd : Cert.Spec.SN1.Idx → EReal := m ((c : Thread nD τ).loc main_arg9)
abbrev br : Cert.Spec.SN1.Idx → EReal := m ((c : Thread nD τ).loc main_arg10)

abbrev conn : IVec Cert.Spec.SE2 32 := m ((c : Thread nD τ).loc main_arg11)

def InRange : Prop := ∀ i : Cert.Spec.SE2.Idx, 0 ≤ (conn m c i).toInt ∧ (conn m c i).toInt < 1000000

end Cert.KernelIdeal.KV

end
-- ==== Proof.TakeLemma.lean ====
import proofs.«429766_j12146167513806_2_alg».proof.Proof.Gen.KernelIdeal
import Idealize.ShloMosaic.Lib.ValueIdx
import Idealize.ShloMosaic.Lib.StableHlo.Predicate

noncomputable section

namespace Cert.KernelIdeal.Take

open Cert.KernelIdeal
open Idealize.ShloMosaic Idealize.ShloMosaic.ValueIdx
open Idealize.ShloMosaic.StableHlo.Predicate (ixP bcast_col1 gather_take toInt_ofNat_small)
open Cert.KernelIdeal.Facts₀

variable [Facts₀]

-- The take of a table at a column of positions: the gathered entry where the position lies in [0, N - 1], else the fill value.
def takeCol (x : FVec Ideal S1000000 .f32) (w : IVec S2000000x1 32) : FVec Ideal S2000000 .f32 :=
  select
    (Host.reduce IntOp.andi
      (andi (cmpi .sge w (broadcastInDim S2000000x1 ![] bcast_S_S2000000x1 (constantI S_ 32 0#32)))
        (cmpi .sle w (broadcastInDim S2000000x1 ![0, 1] bcast_S1x1_S2000000x1_0_1
          (broadcastInDim S1x1 ![1] bcast_S1_S1x1_1 (constantI S1 32 999999#32)))))
      (constantI S_ 1 1#1) reducesTo_S2000000x1_S2000000_d1 h_S_)
    (Host.gather gather_S1000000_S2000000x1_S2000000_n_0_n_n_0_1_1 x w)
    (broadcastInDim S2000000 ![] bcast_S_S2000000 (constant (F := Ideal) S_ .f32 0x7FC00000#32))

-- The take at a flat list of positions: a negative position is first wrapped once by the table's length.
def takeTerm (x : FVec Ideal S1000000 .f32) (idx : IVec S2000000 32) : FVec Ideal S2000000 .f32 :=
  takeCol x (broadcastInDim S2000000x1 ![0] bcast_S2000000_S2000000x1_0
    (select (cmpi .slt idx (broadcastInDim S2000000 ![] bcast_S_S2000000 (constantI S_ 32 0#32)))
      (addi idx (broadcastInDim S2000000 ![] bcast_S_S2000000 (constantI S_ 32 1000000#32))) idx))

theorem ofFin_eq_ix1 {n : Nat} (k : Fin n) : (Shape.Idx.ofFin k : (⟨1, ![n]⟩ : Shape).Idx) = ix1 k := by
  funext a
  match a with
  | ⟨0, _⟩ => exact Fin.ext rfl

theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_one f l _ (IntOp.andi_eq_one.2 ⟨h, hl a List.mem_cons_self⟩)
      (fun n hn => hl n (List.mem_cons_of_mem _ hn))

theorem idx_of_row (i : S2000000x1.Idx) (p : Fin 2000000) (h : i 0 = p) : i = ixP p := by
  funext a
  match a with
  | ⟨0, _⟩ => exact h
  | ⟨1, _⟩ => exact Fin.ext (by have := idx2_lt1 i; show (i 1).val = 0; omega)

-- A nonnegative word fails the sign test, so the select keeps it.
theorem wrap_apply (idx : IVec S2000000 32) (j : S2000000.Idx) (h0 : 0 ≤ (idx j).toInt) :
    select (cmpi .slt idx (broadcastInDim S2000000 ![] bcast_S_S2000000 (constantI S_ 32 0#32)))
      (addi idx (broadcastInDim S2000000 ![] bcast_S_S2000000 (constantI S_ 32 1000000#32))) idx j = idx j := by
  have hz : IntOp.cmpi .slt (idx j) (0#32) = 0#1 := eq_zero_of_ne_one (by
    rw [IntOp.cmpi_slt, toInt_ofNat_small 0 (by norm_num)]; push_cast; omega)
  show Scalar.select (IntOp.cmpi .slt (idx j) (0#32)) (IntOp.addi (idx j) (1000000#32)) (idx j) = idx j
  rw [hz, select_zero]

-- The reduction along the one column is the fold over the row's one entry.
theorem reduce_row_one (m : IVec S2000000x1 1) (p : Fin 2000000) (hm : m (ixP p) = 1#1) :
    Host.reduce IntOp.andi m (constantI S_ 1 1#1) reducesTo_S2000000x1_S2000000_d1 h_S_ (Shape.Idx.ofFin p) = 1#1 := by
  rw [Host.reduce_eq_foldl]
  refine foldl_andi_one m _ _ rfl fun i hi => ?_
  have hv := Shape.ReducesTo.drop_apply_val (reducesTo_S2000000x1_S2000000_d1 : S2000000x1.ReducesTo [1] S2000000) i 0
  rw [of_decide_eq_true (List.mem_filter.1 hi).2] at hv
  rw [idx_of_row i p (Fin.ext hv.symm)]
  exact hm

-- Where the row's word v lies in [0, N - 1] both tests hold, and the select takes the gathered entry.
theorem takeCol_apply (x : FVec Ideal S1000000 .f32) (w : IVec S2000000x1 32) (e : Fin 2000000) (v : BitVec 32)
    (hv : w (ixP e) = v) (hlo : 0 ≤ v.toInt) (hhi : v.toInt ≤ 999999) :
    takeCol x w (Shape.Idx.ofFin e) = x (Shape.Idx.ofFin ⟨min v.toInt.toNat (1000000 - 1), by omega⟩) := by
  subst hv
  have hge : IntOp.cmpi .sge (w (ixP e)) (0#32) = 1#1 := by
    rw [IntOp.cmpi_sge, toInt_ofNat_small 0 (by norm_num)]; push_cast; exact hlo
  have hle : IntOp.cmpi .sle (w (ixP e)) (999999#32) = 1#1 := by
    rw [IntOp.cmpi_sle, toInt_ofNat_small 999999 (by norm_num)]; push_cast; exact hhi
  unfold takeCol
  rw [select_apply, reduce_row_one _ e, select_one]
  · exact gather_take _ rfl rfl rfl rfl x w e (by norm_num)
  · exact IntOp.andi_eq_one.2 ⟨hge, hle⟩

theorem takeTerm_apply (x : FVec Ideal S1000000 .f32) (idx : IVec S2000000 32) (e : Fin 2000000)
    (h : 0 ≤ (idx (ix1 e)).toInt ∧ (idx (ix1 e)).toInt < 1000000) :
    takeTerm x idx (ix1 e) = x (ix1 (⟨min (idx (ix1 e)).toInt.toNat 999999, by omega⟩ : Fin 1000000)) := by
  refine (congrArg (takeTerm x idx) (ofFin_eq_ix1 e).symm).trans
    ((takeCol_apply x _ e (idx (ix1 e)) ?_ h.1 (by omega)).trans
      (congrArg x ((ofFin_eq_ix1 _).trans (congrArg ix1 (Fin.ext rfl)))))
  rw [bcast_col1, ofFin_eq_ix1]
  exact wrap_apply idx _ h.1

end Cert.KernelIdeal.Take

end
-- ==== Proof.KGather.lean ====
import proofs.«429766_j12146167513806_2_alg».proof.Proof.KArgs
import proofs.«429766_j12146167513806_2_alg».proof.Proof.TakeLemma
import Idealize.ShloMosaic.Lib.ValueIdx
import Idealize.ShloMosaic.Lib.IdealHost
import Idealize.ShloMosaic.Lib.Pipeline.Value
import Idealize.ShloMosaic.Lib.StableHlo.Run

set_option maxRecDepth 4076

noncomputable section

open Idealize.ShloMosaic Idealize.ShloMosaic.TcCoe Idealize.SL.Sem Idealize.ShloMosaic.ValueIdx

namespace Cert.KernelIdeal.KGather

open Cert.KernelIdeal Cert.KernelIdeal.Gen Cert.KernelIdeal.GenP Cert.KernelIdeal.KV

theorem col_apply {α : Type} {N C : Nat} (P : (⟨2, ![N, C]⟩ : Shape).Idx → α) (k : Fin C)
    (hs : (⟨2, ![N, C]⟩ : Shape).Slices ![0, k.val] ⟨2, ![N, 1]⟩) (hc : (⟨2, ![N, 1]⟩ : Shape).ShapeCasts ⟨1, ![N]⟩)
    (n : Fin N) :
    shapeCast ⟨1, ![N]⟩ (extractStridedSlice ⟨2, ![N, 1]⟩ ![0, k.val] P hs) hc (ix1 n) = P (ix2 n k) := by
  refine (shapeCast_apply _ hc (ix1 n) (ix2 n (0 : Fin 1)) (by
    rw [Shape.rowMajor_val_two, Shape.rowMajor_val_one]; show n.val * 1 + 0 = n.val; omega)).trans ?_
  refine extractStridedSlice_apply _ P hs _ (ix2 n k) (fun a => ?_)
  match a with
  | ⟨0, _⟩ => show n.val = 0 + n.val; omega
  | ⟨1, _⟩ => show k.val = k.val + 0; omega

theorem scal_apply {N : Nat} (u : S1.Idx → EReal) (hu : S1.ShapeCasts S_)
    (hb : S_.BroadcastsInDim ⟨1, ![N]⟩ (![] : Fin 0 → Fin 1)) (n : Fin N) :
    broadcastInDim ⟨1, ![N]⟩ ![] hb (fun i => shapeCast S_ u hu i) (ix1 n) = u (ix1 (0 : Fin 1)) := by
  refine (broadcastInDim_scalar_apply hb _ _).trans ?_
  refine shapeCast_apply u hu ix0 (ix1 (0 : Fin 1)) ?_
  rw [Shape.rowMajor_val_one]
  exact (Shape.rowMajorPi_zero _ _).symm

theorem scaled_col_apply (P : S1000000x3.Idx → EReal) (u : S1.Idx → EReal) (k : Fin 3)
    (hs : S1000000x3.Slices ![0, k.val] S1000000x1) (hc : S1000000x1.ShapeCasts S1000000) (hu : S1.ShapeCasts S_)
    (hb : S_.BroadcastsInDim S1000000 (![] : Fin 0 → Fin S1000000.rank)) (n : Fin 1000000) :
    mulf (F := Ideal) (s := S1000000) (φ := .f32)
        (fun i => shapeCast S1000000 (extractStridedSlice S1000000x1 ![0, k.val] P hs) hc i)
        (broadcastInDim S1000000 ![] hb fun i => shapeCast S_ u hu i) (ix1 n)
      = P (ix2 n k) * u (ix1 (0 : Fin 1)) :=
  (mulf_apply _ _ _).trans (congrArg₂ (· * ·) (col_apply P k hs hc n) (scal_apply u hu hb n))

theorem ofBuf_toBuf {Val : EltTy → Type} {T : BufTy} (r : Ref sig .tc) (h h' : r.ty = T) (hd hd' hu hu') (v : T.Contents Val) :
    (StableHlo.TRef.of r h hd hu).ofBuf ((StableHlo.TRef.of r h' hd' hu').toBuf v) = v := by
  subst h; rfl

theorem ofBuf_v4 (W : Valuation τ sig (Elt Ideal)) :
    (.of main_v4 : StableHlo.TRef sig ⟨S1000000, .f32⟩).ofBuf (W main_v4) = W main_v4 := rfl
theorem ofBuf_v9 (W : Valuation τ sig (Elt Ideal)) :
    (.of main_v9 : StableHlo.TRef sig ⟨S1000000, .f32⟩).ofBuf (W main_v9) = W main_v9 := rfl
theorem ofBuf_v14 (W : Valuation τ sig (Elt Ideal)) :
    (.of main_v14 : StableHlo.TRef sig ⟨S1000000, .f32⟩).ofBuf (W main_v14) = W main_v14 := rfl
theorem ofBuf_v16 (W : Valuation τ sig (Elt Ideal)) :
    (.of main_v16 : StableHlo.TRef sig ⟨S2000000, .i32⟩).ofBuf (W main_v16) = W main_v16 := rfl
theorem ofBuf_v18 (W : Valuation τ sig (Elt Ideal)) :
    (.of main_v18 : StableHlo.TRef sig ⟨S2000000, .i32⟩).ofBuf (W main_v18) = W main_v18 := rfl
theorem toBuf_v19 (v : FVec Ideal S2000000 .f32) :
    ((.of main_v19 : StableHlo.TRef sig ⟨S2000000, .f32⟩).toBuf (Val := Elt Ideal) v : FVec Ideal S2000000 .f32) = v := rfl
theorem toBuf_v20 (v : FVec Ideal S2000000 .f32) :
    ((.of main_v20 : StableHlo.TRef sig ⟨S2000000, .f32⟩).toBuf (Val := Elt Ideal) v : FVec Ideal S2000000 .f32) = v := rfl
theorem toBuf_v21 (v : FVec Ideal S2000000 .f32) :
    ((.of main_v21 : StableHlo.TRef sig ⟨S2000000, .f32⟩).toBuf (Val := Elt Ideal) v : FVec Ideal S2000000 .f32) = v := rfl
theorem toBuf_v22 (v : FVec Ideal S2000000 .f32) :
    ((.of main_v22 : StableHlo.TRef sig ⟨S2000000, .f32⟩).toBuf (Val := Elt Ideal) v : FVec Ideal S2000000 .f32) = v := rfl
theorem toBuf_v23 (v : FVec Ideal S2000000 .f32) :
    ((.of main_v23 : StableHlo.TRef sig ⟨S2000000, .f32⟩).toBuf (Val := Elt Ideal) v : FVec Ideal S2000000 .f32) = v := rfl
theorem toBuf_v24 (v : FVec Ideal S2000000 .f32) :
    ((.of main_v24 : StableHlo.TRef sig ⟨S2000000, .f32⟩).toBuf (Val := Elt Ideal) v : FVec Ideal S2000000 .f32) = v := rfl

theorem take0 (W : Valuation τ sig (Elt Ideal)) :
    (StableHlo.after hostOps0_1 W (Proc.devRef .tc main_v19) : FVec Ideal S2000000 .f32)
      = Take.takeTerm (W (Proc.devRef .tc main_v4)) (W (Proc.devRef .tc main_v16)) := by
  after_results_simp
  simp only [ofBuf_toBuf, ofBuf_v16 W, ofBuf_v4 W, toBuf_v19, Take.takeTerm, Take.takeCol]

theorem take1 (W : Valuation τ sig (Elt Ideal)) :
    (StableHlo.after hostOps0_2 W (Proc.devRef .tc main_v20) : FVec Ideal S2000000 .f32)
      = Take.takeTerm (W (Proc.devRef .tc main_v9)) (W (Proc.devRef .tc main_v16)) := by
  after_results_simp
  simp only [ofBuf_toBuf, ofBuf_v16 W, ofBuf_v9 W, toBuf_v20, Take.takeTerm, Take.takeCol]

theorem take2 (W : Valuation τ sig (Elt Ideal)) :
    (StableHlo.after hostOps0_3 W (Proc.devRef .tc main_v21) : FVec Ideal S2000000 .f32)
      = Take.takeTerm (W (Proc.devRef .tc main_v14)) (W (Proc.devRef .tc main_v16)) := by
  after_results_simp
  simp only [ofBuf_toBuf, ofBuf_v16 W, ofBuf_v14 W, toBuf_v21, Take.takeTerm, Take.takeCol]

theorem take3 (W : Valuation τ sig (Elt Ideal)) :
    (StableHlo.after hostOps0_4 W (Proc.devRef .tc main_v22) : FVec Ideal S2000000 .f32)
      = Take.takeTerm (W (Proc.devRef .tc main_v4)) (W (Proc.devRef .tc main_v18)) := by
  after_results_simp
  simp only [ofBuf_toBuf, ofBuf_v18 W, ofBuf_v4 W, toBuf_v22, Take.takeTerm, Take.takeCol]

theorem take4 (W : Valuation τ sig (Elt Ideal)) :
    (StableHlo.after hostOps0_5 W (Proc.devRef .tc main_v23) : FVec Ideal S2000000 .f32)
      = Take.takeTerm (W (Proc.devRef .tc main_v9)) (W (Proc.devRef .tc main_v18)) := by
  after_results_simp
  simp only [ofBuf_toBuf, ofBuf_v18 W, ofBuf_v9 W, toBuf_v23, Take.takeTerm, Take.takeCol]

theorem take5 (W : Valuation τ sig (Elt Ideal)) :
    (StableHlo.after hostOps0_6 W (Proc.devRef .tc main_v24) : FVec Ideal S2000000 .f32)
      = Take.takeTerm (W (Proc.devRef .tc main_v14)) (W (Proc.devRef .tc main_v18)) := by
  after_results_simp
  simp only [ofBuf_toBuf, ofBuf_v18 W, ofBuf_v14 W, toBuf_v24, Take.takeTerm, Take.takeCol]

-- A list of operations, with a list holding every reference they write.
structure Stretch where
  ops : List (HloOp τ sig (Elt Ideal))
  W : List (Ref sig .tc)
  hW : ops.Forall fun op => op.writes ⊆ (W.map (Proc.devRef (τ := τ) .tc)).toFinset

def st : Nat → Stretch
  | 0 => ⟨hostOps0, _, hostOps0_writes⟩
  | 1 => ⟨hostOps0_1, _, hostOps0_1_writes⟩
  | 2 => ⟨hostOps0_2, _, hostOps0_2_writes⟩
  | 3 => ⟨hostOps0_3, _, hostOps0_3_writes⟩
  | 4 => ⟨hostOps0_4, _, hostOps0_4_writes⟩
  | 5 => ⟨hostOps0_5, _, hostOps0_5_writes⟩
  | 6 => ⟨hostOps0_6, _, hostOps0_6_writes⟩
  | 7 => ⟨hostOps0_7, _, hostOps0_7_writes⟩
  | 8 => ⟨hostOps0_8, _, hostOps0_8_writes⟩
  | 9 => ⟨hostOps0_9, _, hostOps0_9_writes⟩
  | 10 => ⟨hostOps0_10, _, hostOps0_10_writes⟩
  | 11 => ⟨hostOps0_11, _, hostOps0_11_writes⟩
  | 12 => ⟨hostOps0_12, _, hostOps0_12_writes⟩
  | 13 => ⟨hostOps0_13, _, hostOps0_13_writes⟩
  | 14 => ⟨hostOps0_14, _, hostOps0_14_writes⟩
  | 15 => ⟨hostOps0_15, _, hostOps0_15_writes⟩
  | 16 => ⟨hostOps0_16, _, hostOps0_16_writes⟩
  | 17 => ⟨hostOps0_17, _, hostOps0_17_writes⟩
  | 18 => ⟨hostOps0_18, _, hostOps0_18_writes⟩
  | 19 => ⟨hostOps0_19, _, hostOps0_19_writes⟩
  | 20 => ⟨hostOps0_20, _, hostOps0_20_writes⟩
  | 21 => ⟨hostOps0_21, _, hostOps0_21_writes⟩
  | 22 => ⟨hostOps0_22, _, hostOps0_22_writes⟩
  | 23 => ⟨hostOps0_23, _, hostOps0_23_writes⟩
  | 24 => ⟨hostOps0_24, _, hostOps0_24_writes⟩
  | 25 => ⟨hostOps0_25, _, hostOps0_25_writes⟩
  | 26 => ⟨hostOps0_26, _, hostOps0_26_writes⟩
  | 27 => ⟨hostOps0_27, _, hostOps0_27_writes⟩
  | 28 => ⟨hostOps0_28, _, hostOps0_28_writes⟩
  | 29 => ⟨hostOps0_29, _, hostOps0_29_writes⟩
  | 30 => ⟨hostOps0_30, _, hostOps0_30_writes⟩
  | 31 => ⟨hostOps0_31, _, hostOps0_31_writes⟩
  | _ => ⟨[], [], trivial⟩

variable (m : (ℓ : Loc nD τ sig) → Buf (Elt Ideal) ℓ) (c : Dev nD)

-- The contents after the first k lists of operations.

def VN : Nat → Valuation τ sig (Elt Ideal)
  | 0 => V0 m c
  | k + 1 => StableHlo.after (st k).ops (VN k)

-- A reference that none of the n lists from a on writes holds after them what it held before.
theorem carry (a : Nat) (r : Ref sig .tc) : ∀ n, (∀ k < n, r ∉ (st (a + k)).W) → VN m c (a + n) r = VN m c a r
  | 0, _ => rfl
  | n + 1, h => (StableHlo.after_of_writes_sub _ _ (st (a + n)).hW (h n n.lt_succ_self)).trans
      (carry a r n fun k hk => h k (Nat.lt_succ_of_lt hk))

theorem v4_apply (n : Fin 1000000) :
    (V1 m c main_v4 : S1000000.Idx → EReal) (ix1 n) = Cert.Spec.uphys (pred m c) (uc m c) (th m c) n 0 := by
  show StableHlo.after hostOps0 (V0 m c) (Proc.devRef .tc main_v4) (ix1 n) = _
  after_results
  exact scaled_col_apply (pred m c) (uc m c) 0 _ _ _ _ n

theorem v9_apply (n : Fin 1000000) :
    (V1 m c main_v9 : S1000000.Idx → EReal) (ix1 n) = Cert.Spec.uphys (pred m c) (uc m c) (th m c) n 1 := by
  show StableHlo.after hostOps0 (V0 m c) (Proc.devRef .tc main_v9) (ix1 n) = _
  after_results
  exact scaled_col_apply (pred m c) (uc m c) 1 _ _ _ _ n

theorem v14_apply (n : Fin 1000000) :
    (V1 m c main_v14 : S1000000.Idx → EReal) (ix1 n) = Cert.Spec.uphys (pred m c) (uc m c) (th m c) n 2 := by
  show StableHlo.after hostOps0 (V0 m c) (Proc.devRef .tc main_v14) (ix1 n) = _
  after_results
  exact scaled_col_apply (pred m c) (th m c) 2 _ _ _ _ n

theorem v16_apply (e : Fin 2000000) :
    (V1 m c main_v16 : IVec S2000000 32) (ix1 e) = conn m c (ix2 e (0 : Fin 2)) := by
  show StableHlo.after hostOps0 (V0 m c) (Proc.devRef .tc main_v16) (ix1 e) = _
  after_results
  exact col_apply (conn m c) 0 _ _ e

theorem v18_apply (e : Fin 2000000) :
    (V1 m c main_v18 : IVec S2000000 32) (ix1 e) = conn m c (ix2 e (1 : Fin 2)) := by
  show StableHlo.after hostOps0 (V0 m c) (Proc.devRef .tc main_v18) (ix1 e) = _
  after_results
  exact col_apply (conn m c) 1 _ _ e

-- Under the range fact a take of a displacement column at a node column reads the column at the element's node.
theorem stream_apply {y : FVec Ideal S2000000 .f32} (x : FVec Ideal S1000000 .f32) (idx : IVec S2000000 32) (j : Fin 2)
    (k : Fin 3) (hy : y = Take.takeTerm x idx)
    (hx : ∀ n : Fin 1000000, x (ix1 n) = Cert.Spec.uphys (pred m c) (uc m c) (th m c) n k)
    (hi : ∀ e : Fin 2000000, idx (ix1 e) = conn m c (ix2 e j)) (hr : InRange m c) (e : Fin 2000000) :
    y (ix1 e) = Cert.Spec.uphys (pred m c) (uc m c) (th m c) (Cert.Spec.node (conn m c) e j) k := by
  have h := hr (ix2 e j)
  rw [← hi e] at h
  refine (congrFun hy _).trans ((Take.takeTerm_apply x idx e h).trans ((hx _).trans ?_))
  refine congrArg (fun n => Cert.Spec.uphys (pred m c) (uc m c) (th m c) n k) (Fin.ext ?_)
  show min (idx (ix1 e)).toInt.toNat 999999 = min (conn m c (ix2 e j)).toInt.toNat 999999
  rw [hi e]

theorem gat19 (hr : InRange m c) (e : Fin 2000000) :
    (V7 m c main_v19 : S2000000.Idx → EReal) (ix1 e)
      = Cert.Spec.uphys (pred m c) (uc m c) (th m c) (Cert.Spec.node (conn m c) e 0) 0 :=
  stream_apply m c _ _ 0 0 ((carry m c 2 main_v19 5 (by decide)).trans <| take0 (V1 m c))
    (v4_apply m c) (v16_apply m c) hr e

theorem gat20 (hr : InRange m c) (e : Fin 2000000) :
    (V7 m c main_v20 : S2000000.Idx → EReal) (ix1 e)
      = Cert.Spec.uphys (pred m c) (uc m c) (th m c) (Cert.Spec.node (conn m c) e 0) 1 :=
  stream_apply m c _ _ 0 1 ((carry m c 3 main_v20 4 (by decide)).trans <| (take1 (V2 m c)).trans <|
      congrArg₂ Take.takeTerm (carry m c 1 main_v9 1 (by decide)) (carry m c 1 main_v16 1 (by decide)))
    (v9_apply m c) (v16_apply m c) hr e

theorem gat21 (hr : InRange m c) (e : Fin 2000000) :
    (V7 m c main_v21 : S2000000.Idx → EReal) (ix1 e)
      = Cert.Spec.uphys (pred m c) (uc m c) (th m c) (Cert.Spec.node (conn m c) e 0) 2 :=
  stream_apply m c _ _ 0 2 ((carry m c 4 main_v21 3 (by decide)).trans <| (take2 (V3 m c)).trans <|
      congrArg₂ Take.takeTerm (carry m c 1 main_v14 2 (by decide)) (carry m c 1 main_v16 2 (by decide)))
    (v14_apply m c) (v16_apply m c) hr e

theorem gat22 (hr : InRange m c) (e : Fin 2000000) :
    (V7 m c main_v22 : S2000000.Idx → EReal) (ix1 e)
      = Cert.Spec.uphys (pred m c) (uc m c) (th m c) (Cert.Spec.node (conn m c) e 1) 0 :=
  stream_apply m c _ _ 1 0 ((carry m c 5 main_v22 2 (by decide)).trans <| (take3 (V4 m c)).trans <|
      congrArg₂ Take.takeTerm (carry m c 1 main_v4 3 (by decide)) (carry m c 1 main_v18 3 (by decide)))
    (v4_apply m c) (v18_apply m c) hr e

theorem gat23 (hr : InRange m c) (e : Fin 2000000) :
    (V7 m c main_v23 : S2000000.Idx → EReal) (ix1 e)
      = Cert.Spec.uphys (pred m c) (uc m c) (th m c) (Cert.Spec.node (conn m c) e 1) 1 :=
  stream_apply m c _ _ 1 1 ((carry m c 6 main_v23 1 (by decide)).trans <| (take4 (V5 m c)).trans <|
      congrArg₂ Take.takeTerm (carry m c 1 main_v9 4 (by decide)) (carry m c 1 main_v18 4 (by decide)))
    (v9_apply m c) (v18_apply m c) hr e

theorem gat24 (hr : InRange m c) (e : Fin 2000000) :
    (V7 m c main_v24 : S2000000.Idx → EReal) (ix1 e)
      = Cert.Spec.uphys (pred m c) (uc m c) (th m c) (Cert.Spec.node (conn m c) e 1) 2 :=
  stream_apply m c _ _ 1 2 ((take5 (V6 m c)).trans <|
      congrArg₂ Take.takeTerm (carry m c 1 main_v14 5 (by decide)) (carry m c 1 main_v18 5 (by decide)))
    (v14_apply m c) (v18_apply m c) hr e

end Cert.KernelIdeal.KGather

end
-- ==== Proof.KMid.lean ====
import proofs.«429766_j12146167513806_2_alg».proof.Proof.KArgs
import proofs.«429766_j12146167513806_2_alg».proof.Proof.KGather
import Idealize.ShloMosaic.Lib.Pipeline.Value
import Idealize.ShloMosaic.Lib.ValueIdx
import Idealize.ShloMosaic.Lib.StableHlo.Run
import Idealize.ShloMosaic.Lib.KernelVsHost
import Mathlib.Data.EReal.Basic
import Mathlib.Data.Int.Cast.Basic

noncomputable section

open Idealize.ShloMosaic Idealize.ShloMosaic.TcCoe Idealize.SL.Sem Idealize.ShloMosaic.ValueIdx

namespace Cert.KernelIdeal.KMid

open Cert.KernelIdeal Cert.KernelIdeal.Gen Cert.KernelIdeal.GenP Cert.KernelIdeal.KV

variable (m : (ℓ : Loc nD τ sig) → Buf (Elt Ideal) ℓ) (outs : GenP.Outs (F := Ideal)) (c : Dev nD)

def outA (k : Fin 3) : S16384x128.Idx → EReal :=
  match k with
  | ⟨0, _⟩ => outs 33 main_v53_0 c
  | ⟨1, _⟩ => outs 33 main_v53_1 c
  | ⟨_ + 2, _⟩ => outs 33 main_v53_2 c

def outB (k : Fin 3) : S16384x128.Idx → EReal :=
  match k with
  | ⟨0, _⟩ => outs 33 main_v53_3 c
  | ⟨1, _⟩ => outs 33 main_v53_4 c
  | ⟨_ + 2, _⟩ => outs 33 main_v53_5 c

def nA : IVec S2000000 32 :=
  shapeCast S2000000 (extractStridedSlice S2000000x1 ![0, 0] (conn m c) slices_S2000000x2_S2000000x1_0_0)
    shapeCasts_S2000000x1_S2000000

def nB : IVec S2000000 32 :=
  shapeCast S2000000 (extractStridedSlice S2000000x1 ![0, 1] (conn m c) slices_S2000000x2_S2000000x1_0_1)
    shapeCasts_S2000000x1_S2000000

def maskT : S1000000x3.Idx → EReal :=
  concatenate S1000000x3 1
    [⟨S1000000x1, subf (broadcastInDim S1000000x1 ![] bcast_S_S1000000x1 (constant (F := Ideal) S_ .f32 0x3F800000#32)) (bd m c)⟩,
     ⟨S1000000x1, subf (broadcastInDim S1000000x1 ![] bcast_S_S1000000x1 (constant (F := Ideal) S_ .f32 0x3F800000#32)) (bd m c)⟩,
     ⟨S1000000x1, subf (broadcastInDim S1000000x1 ![] bcast_S_S1000000x1 (constant (F := Ideal) S_ .f32 0x3F800000#32)) (br m c)⟩]
    concatenates_S1000000x1_S1000000x1_S1000000x1_S1000000x3_d1

theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

open Idealize.ShloMosaic.StableHlo in
local macro "after_results_simp3" : tactic =>
  `(tactic| (simp (disch := decide) only [after_cons, after_nil,
      nullary_result', unary_result', binary_result', ternary_result', reshape_result',
      nullary_result_ne', unary_result_ne', binary_result_ne', ternary_result_ne', reshape_result_ne', nary_result_ne']))

local macro "after_results_all" : tactic =>
  `(tactic| (after_results_simp3; repeat (rw [nary3_result]; try after_results_simp3)))

theorem V33_arg8 : (V33 m outs c main_arg8 : S1000000x3.Idx → EReal) = fext m c :=
  (V33_of m outs c _ (by decide)).trans (KGather.carry m c 0 _ 32 (by decide))

theorem V33_arg9 : (V33 m outs c main_arg9 : S1000000x1.Idx → EReal) = bd m c :=
  (V33_of m outs c _ (by decide)).trans (KGather.carry m c 0 _ 32 (by decide))

theorem V33_arg10 : (V33 m outs c main_arg10 : S1000000x1.Idx → EReal) = br m c :=
  (V33_of m outs c _ (by decide)).trans (KGather.carry m c 0 _ 32 (by decide))

theorem V33_v16 : (V33 m outs c main_v16 : IVec S2000000 32) = nA m c := by
  refine (V33_of _ _ _ _ (by decide)).trans ((KGather.carry m c 1 _ 31 (by decide)).trans ?_)
  show V1 m c main_v16 = _
  after_results
  rfl

theorem V33_v18 : (V33 m outs c main_v18 : IVec S2000000 32) = nB m c := by
  refine (V33_of _ _ _ _ (by decide)).trans ((KGather.carry m c 1 _ 31 (by decide)).trans ?_)
  show V1 m c main_v18 = _
  after_results
  rfl

section AtIndex
variable {α : Type}

theorem columns3_apply (a0 a1 a2 : S2000000x1.Idx → α)
    (h : Shape.Concatenates [S2000000x1, S2000000x1, S2000000x1] S2000000x3 1) (i : Fin 2000000) (k : Fin 3) :
    concatenate S2000000x3 1 [⟨S2000000x1, a0⟩, ⟨S2000000x1, a1⟩, ⟨S2000000x1, a2⟩] h (ix2 i k)
      = (match k with | ⟨0, _⟩ => a0 | ⟨1, _⟩ => a1 | ⟨_ + 2, _⟩ => a2) (ix2 i (0 : Fin 1)) := by
  have hi : ∀ (k : Fin 3) (b : Fin 2), b.cast rfl ≠ (1 : Fin 2) →
      ((ix2 i (0 : Fin 1)) b).val = ((ix2 i k) (b.cast rfl)).val := fun _ b hb =>
    match b with
    | ⟨0, _⟩ => rfl
    | ⟨1, _⟩ => absurd rfl hb
  have key := concatenate_apply_piece (t := S2000000x3) 1 [⟨S2000000x1, a0⟩, ⟨S2000000x1, a1⟩, ⟨S2000000x1, a2⟩] h
  match k with
  | ⟨0, _⟩ => exact key _ 0 (Nat.succ_pos 2) _ a0 rfl rfl 0 rfl _ (hi _) rfl
  | ⟨1, _⟩ => exact key _ 1 (Nat.succ_lt_succ (Nat.succ_pos 1)) _ a1 rfl rfl 1 rfl _ (hi _) rfl
  | ⟨2, _⟩ => exact key _ 2 (Nat.lt_succ_self 2) _ a2 rfl rfl 2 rfl _ (hi _) rfl

theorem rows2_apply_lo (a b : S2000000x3.Idx → α) (h : Shape.Concatenates [S2000000x3, S2000000x3] S4000000x3 0)
    (j : Fin 4000000) (hj : j.val < 2000000) (k : Fin 3) :
    concatenate S4000000x3 0 [⟨S2000000x3, a⟩, ⟨S2000000x3, b⟩] h (ix2 j k) = a (ix2 (⟨j.val, hj⟩ : Fin 2000000) k) :=
  concatenate_pair_apply_left 0 a b h _ rfl _ fun d =>
    match d with
    | ⟨0, _⟩ => rfl
    | ⟨1, _⟩ => rfl

theorem rows2_apply_hi (a b : S2000000x3.Idx → α) (h : Shape.Concatenates [S2000000x3, S2000000x3] S4000000x3 0)
    (j : Fin 4000000) (hj : 2000000 ≤ j.val) (k : Fin 3) :
    concatenate S4000000x3 0 [⟨S2000000x3, a⟩, ⟨S2000000x3, b⟩] h (ix2 j k)
      = b (ix2 (⟨j.val - 2000000, by omega⟩ : Fin 2000000) k) :=
  concatenate_pair_apply_right 0 a b h _ rfl rfl _
    (fun d hd =>
      match d with
      | ⟨0, _⟩ => absurd rfl hd
      | ⟨1, _⟩ => rfl)
    (Nat.sub_add_cancel hj)

end AtIndex

def flat (x : S16384x128.Idx → EReal) : S2000000.Idx → EReal :=
  extractStridedSlice S2000000 ![0] (shapeCast S2097152 x shapeCasts_S16384x128_S2097152) slices_S2097152_S2000000_0

def col (v : S2000000.Idx → EReal) : S2000000x1.Idx → EReal :=
  broadcastInDim S2000000x1 ![0] bcast_S2000000_S2000000x1_0 v

def cols3 (a0 a1 a2 : S2000000x1.Idx → EReal) : S2000000x3.Idx → EReal :=
  concatenate S2000000x3 1 [⟨S2000000x1, a0⟩, ⟨S2000000x1, a1⟩, ⟨S2000000x1, a2⟩]
    concatenates_S2000000x1_S2000000x1_S2000000x1_S2000000x3_d1

def rows2 (a b : S2000000x3.Idx → EReal) : S4000000x3.Idx → EReal :=
  concatenate S4000000x3 0 [⟨S2000000x3, a⟩, ⟨S2000000x3, b⟩] concatenates_S2000000x3_S2000000x3_S4000000x3_d0

-- Entry `i` of the flattened array sits at row `i / 128`, column `i % 128`, since `128 (i / 128) + i % 128 = i`.
theorem col_flat_apply (x : S16384x128.Idx → EReal) (i : Fin 2000000) (z : Fin 1) :
    col (flat x) (ix2 i z) = x (ix2 (⟨i.val / 128, by omega⟩ : Fin 16384) (⟨i.val % 128, by omega⟩ : Fin 128)) := by
  refine (broadcastInDim_apply (s := S2000000) (t := S2000000x1) ![0] _ _ _ (ix1 i) fun a => ?_).trans ?_
  · match a with
    | ⟨0, _⟩ => exact (if_neg (by omega : ¬(2000000 : Nat) = 1)).symm
  refine (extractStridedSlice_apply (s := S2097152) ![0] _ _ (ix1 i) (ix1 (⟨i.val, by omega⟩ : Fin 2097152)) fun a => ?_).trans ?_
  · match a with
    | ⟨0, _⟩ => exact (Nat.zero_add _).symm
  refine shapeCast_apply x _ _ _ ?_
  rw [Shape.rowMajor_val_two, Shape.rowMajor_val_one]
  show (i.val / 128) * 128 + i.val % 128 = i.val
  omega

theorem v74_of (W : Valuation τ sig (Elt Ideal)) :
    (StableHlo.after hostOps1 W main_v74 : S4000000x3.Idx → EReal)
      = rows2 (cols3 (col (flat (W main_v53_0))) (col (flat (W main_v53_1))) (col (flat (W main_v53_2))))
          (cols3 (col (flat (W main_v53_3))) (col (flat (W main_v53_4))) (col (flat (W main_v53_5)))) := by
  after_results_all
  rfl

-- A function updated at six distinct points takes at each of them the value given there.
theorem v74_eq :
    (V34 m outs c main_v74 : S4000000x3.Idx → EReal)
      = rows2 (cols3 (col (flat (outs 33 main_v53_0 c))) (col (flat (outs 33 main_v53_1 c))) (col (flat (outs 33 main_v53_2 c))))
          (cols3 (col (flat (outs 33 main_v53_3 c))) (col (flat (outs 33 main_v53_4 c))) (col (flat (outs 33 main_v53_5 c)))) := by
  refine (v74_of (V33 m outs c)).trans ?_
  simp (disch := exact StableHlo.devRef_ne_of_ne (by decide)) only [V33, Function.update_self, Function.update_of_ne]

theorem upd_lo (a : Fin 4000000) (h : a.val < 2000000) (k : Fin 3) :
    V34 m outs c main_v74 (ix2 a k)
      = outA outs c k (ix2 (⟨a.val / 128, by omega⟩ : Fin 16384) (⟨a.val % 128, by omega⟩ : Fin 128)) := by
  rw [v74_eq]
  refine (rows2_apply_lo _ _ _ a h k).trans ((columns3_apply _ _ _ _ _ k).trans ?_)
  match k with
  | ⟨0, _⟩ | ⟨1, _⟩ | ⟨2, _⟩ => exact col_flat_apply _ ⟨a.val, h⟩ 0

theorem upd_hi (a : Fin 4000000) (h : 2000000 ≤ a.val) (k : Fin 3) :
    V34 m outs c main_v74 (ix2 a k)
      = outB outs c k (ix2 (⟨(a.val - 2000000) / 128, by omega⟩ : Fin 16384) (⟨(a.val - 2000000) % 128, by omega⟩ : Fin 128)) := by
  rw [v74_eq]
  refine (rows2_apply_hi _ _ _ a h k).trans ((columns3_apply _ _ _ _ _ k).trans ?_)
  match k with
  | ⟨0, _⟩ | ⟨1, _⟩ | ⟨2, _⟩ => exact col_flat_apply _ ⟨a.val - 2000000, by omega⟩ 0

theorem resid_eq :
    (V34 m outs c main_v87 : S1000000x3.Idx → EReal)
      = mulf (subf (Host.scatterAdd scatter_S1000000x3_S4000000x1_S4000000x3_1_0_0_1
            (broadcastInDim S1000000x3 ![] bcast_S_S1000000x3 (constant (F := Ideal) S_ .f32 0x00000000#32))
            (broadcastInDim S4000000x1 ![0] bcast_S4000000_S4000000x1_0
              (concatenate S4000000 0 [⟨S2000000, nA m c⟩, ⟨S2000000, nB m c⟩] concatenates_S2000000_S2000000_S4000000_d0))
            (V34 m outs c main_v74 : S4000000x3.Idx → EReal)) (fext m c)) (maskT m c) := by
  unfold maskT
  rw [← V33_arg8 m outs c, ← V33_arg9 m outs c, ← V33_arg10 m outs c, ← V33_v16 m outs c, ← V33_v18 m outs c]
  unfold V34
  generalize V33 m outs c = W
  after_results_all
  rfl

theorem fmask_eq :
    (V34 m outs c main_v88 : S1000000x3.Idx → EReal) = mulf (F := Ideal) (φ := .f32) (fext m c) (maskT m c) := by
  unfold maskT
  rw [← V33_arg8 m outs c, ← V33_arg9 m outs c, ← V33_arg10 m outs c]
  unfold V34
  generalize V33 m outs c = W
  after_results_all
  rfl

theorem v89_of (W : Valuation τ sig (Elt Ideal)) :
    (StableHlo.after hostOps1 W main_v89 : S3000000.Idx → EReal)
      = shapeCast S3000000 (StableHlo.after hostOps1 W main_v87) shapeCasts_S1000000x3_S3000000 := by
  after_results_all
  rfl

theorem v90_of (W : Valuation τ sig (Elt Ideal)) :
    (StableHlo.after hostOps1 W main_v90 : S3000000.Idx → EReal)
      = shapeCast S3000000 (StableHlo.after hostOps1 W main_v88) shapeCasts_S1000000x3_S3000000 := by
  after_results_all
  rfl

theorem vc_of (W : Valuation τ sig (Elt Ideal)) :
    (StableHlo.after hostOps1 W main_c : IVec S_ 32) = constantI S_ 32 0#32 := by
  after_results_simp3

theorem v91_of (W : Valuation τ sig (Elt Ideal)) :
    (StableHlo.after hostOps1_1 W main_v91 : S3145728.Idx → EReal)
      = pad S3145728 ![0] ![145728] ![0] (W main_v89)
          (sitofp (F := Ideal) .f32 (W main_c)) pads_S3000000_S3145728_01457280 h_S_ := by
  after_results
  rfl

theorem vc15_of (W : Valuation τ sig (Elt Ideal)) :
    (StableHlo.after hostOps1_2 W main_c_15 : IVec S_ 32) = constantI S_ 32 0#32 := by
  after_results

theorem v92_of (W : Valuation τ sig (Elt Ideal)) :
    (StableHlo.after hostOps1_3 W main_v92 : S3145728.Idx → EReal)
      = pad S3145728 ![0] ![145728] ![0] (W main_v90)
          (sitofp (F := Ideal) .f32 (W main_c_15)) pads_S3000000_S3145728_01457280 h_S_ := by
  after_results
  rfl

theorem v93_of (W : Valuation τ sig (Elt Ideal)) :
    (StableHlo.after hostOps1_4 W main_v93 : S24576x128.Idx → EReal)
      = shapeCast S24576x128 (W main_v91) shapeCasts_S3145728_S24576x128 := by
  after_results
  rfl

theorem v94_of (W : Valuation τ sig (Elt Ideal)) :
    (StableHlo.after hostOps1_4 W main_v94 : S24576x128.Idx → EReal)
      = shapeCast S24576x128 (W main_v92) shapeCasts_S3145728_S24576x128 := by
  after_results
  rfl
-- Entry `(p, q)` is entry `128 p + q` of the flattened array, i.e. its entry `(/ 3, % 3)`, and past its end the zero.
theorem padded_apply {x : S1000000x3.Idx → EReal} {y : S3000000.Idx → EReal} {z : IVec S_ 32} {w : S3145728.Idx → EReal}
    {r : S24576x128.Idx → EReal} (hr : r = shapeCast S24576x128 w shapeCasts_S3145728_S24576x128)
    (hw : w = pad S3145728 ![0] ![145728] ![0] y (sitofp (F := Ideal) .f32 z) pads_S3000000_S3145728_01457280 h_S_)
    (hy : y = shapeCast S3000000 x shapeCasts_S1000000x3_S3000000) (hz : z = constantI S_ 32 0#32)
    (p : Fin 24576) (q : Fin 128) :
    r (ix2 p q)
      = if h : 128 * p.val + q.val < 3000000 then
          x (ix2 (⟨(128 * p.val + q.val) / 3, by omega⟩ : Fin 1000000) (⟨(128 * p.val + q.val) % 3, by omega⟩ : Fin 3))
        else (0 : EReal) := by
  subst hr hw hy hz
  refine (shapeCast_apply _ _ _ (ix1 (⟨128 * p.val + q.val, by omega⟩ : Fin 3145728)) ?_).trans ?_
  · rw [Shape.rowMajor_val_two, Shape.rowMajor_val_one]
    show 128 * p.val + q.val = p.val * 128 + q.val
    omega
  by_cases h : 128 * p.val + q.val < 3000000
  · rw [dif_pos h]
    refine (pad_apply_of_inside _ _ _ _ _ _ _ _ (ix1 (⟨128 * p.val + q.val, h⟩ : Fin 3000000)) fun a => ?_).trans ?_
    · match a with
      | ⟨0, _⟩ => show 128 * p.val + q.val = 0 + (128 * p.val + q.val) * (0 + 1); omega
    refine shapeCast_apply x _ _ _ ?_
    rw [Shape.rowMajor_val_two, Shape.rowMajor_val_one]
    show (128 * p.val + q.val) / 3 * 3 + (128 * p.val + q.val) % 3 = 128 * p.val + q.val
    omega
  · rw [dif_neg h]
    refine (pad_apply_of_not_inside _ _ _ _ _ _ _ _ 0 fun hin => h ?_).trans (sitofp_zero (φ := .f32))
    have h3 : (128 * p.val + q.val - 0) / (0 + 1) < 3000000 := hin.2.2
    omega

theorem r2_apply (p : Fin 24576) (q : Fin 128) :
    (V38 m outs c main_v93 : S24576x128.Idx → EReal) (ix2 p q)
      = if h : 128 * p.val + q.val < 3000000 then
          (V34 m outs c main_v87 : S1000000x3.Idx → EReal)
            (ix2 (⟨(128 * p.val + q.val) / 3, by omega⟩ : Fin 1000000) (⟨(128 * p.val + q.val) % 3, by omega⟩ : Fin 3))
        else (0 : EReal) :=
  padded_apply (v93_of (V37 m outs c))
    (((V37_of m outs c _ (by decide)).trans (V36_of m outs c _ (by decide))).trans (v91_of (V34 m outs c)))
    (v89_of (V33 m outs c)) (vc_of (V33 m outs c)) p q

theorem f2_apply (p : Fin 24576) (q : Fin 128) :
    (V38 m outs c main_v94 : S24576x128.Idx → EReal) (ix2 p q)
      = if h : 128 * p.val + q.val < 3000000 then
          (V34 m outs c main_v88 : S1000000x3.Idx → EReal)
            (ix2 (⟨(128 * p.val + q.val) / 3, by omega⟩ : Fin 1000000) (⟨(128 * p.val + q.val) % 3, by omega⟩ : Fin 3))
        else (0 : EReal) :=
  padded_apply (v94_of (V37 m outs c)) (v92_of (V36 m outs c))
    (((V36_of m outs c _ (by decide)).trans (V35_of m outs c _ (by decide))).trans (v90_of (V33 m outs c)))
    (vc15_of (V35 m outs c)) p q

theorem res_eq :
    (V40 m outs c main_v96 : S_.Idx → EReal)
      = fun _ => (outs 39 main_v95 c : S1x1.Idx → EReal) (ix2 (0 : Fin 1) (0 : Fin 1)) := by
  have e : (V40 m outs c main_v96 : S_.Idx → EReal)
      = shapeCast S_ (outs 39 main_v95 c) shapeCasts_S1x1_S_ := by
    after_results
    rfl
  rw [e]
  funext j
  refine shapeCast_apply _ _ j _ ?_
  show ((S1x1 : Shape).rowMajor (ix2 (0 : Fin 1) (0 : Fin 1))).val = ((S_ : Shape).rowMajor j).val
  have h0 : ((S_ : Shape).rowMajor j).val = 0 := Shape.rowMajorPi_zero _ _
  rw [Shape.rowMajor_val_two, h0]
  rfl

end Cert.KernelIdeal.KMid

end
-- ==== Proof.R0Pay.lean ====
import proofs.«429766_j12146167513806_2_alg».proof.Proof.Gen.KernelIdeal.Skeleton
import proofs.«429766_j12146167513806_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.R0V

open Cert.KernelIdeal Cert.KernelIdeal.Gen Idealize.ShloMosaic Idealize.ShloMosaic.ValueIdx

theorem zsub {s : Shape} (x : FVec Ideal s .f32) :
    subf (broadcast s (Scalar.ofBits .f32 0x00000000#32)) x = negf x :=
  funext fun i => (congrArg (· - x i) Ideal.ofBits_zero_f32).trans (zero_sub _)

/-- The six result blocks as functions of the twelve argument blocks. -/
def outBlk (x0 x1 x2 x3 x4 x5 x6 x7 x8 x9 x10 x11 : Vec Ideal S1024x128 .f32) : Fin 6 → FVec Ideal S1024x128 .f32
  | ⟨0, _⟩ => k0_pay22 (k0_pay1 x6) (k0_pay2 x7) (k0_pay17 (k0_pay1 x6) (k0_pay2 x7) (k0_pay5 x8 x9 x10) (k0_pay9 x0) (k0_pay10 x1) (k0_pay12 x3) x4) (k0_pay18 (k0_pay1 x6) (k0_pay2 x7) (k0_pay7 x8 x9 x11) (k0_pay8 x8 x9 x11) (k0_pay9 x0) (k0_pay10 x1) (k0_pay11 x2) (k0_pay12 x3) x4 x5)
  | ⟨1, _⟩ => k0_pay23 (k0_pay1 x6) (k0_pay2 x7) (k0_pay17 (k0_pay1 x6) (k0_pay2 x7) (k0_pay5 x8 x9 x10) (k0_pay9 x0) (k0_pay10 x1) (k0_pay12 x3) x4) (k0_pay18 (k0_pay1 x6) (k0_pay2 x7) (k0_pay7 x8 x9 x11) (k0_pay8 x8 x9 x11) (k0_pay9 x0) (k0_pay10 x1) (k0_pay11 x2) (k0_pay12 x3) x4 x5)
  | ⟨2, _⟩ => k0_pay24 (k0_pay19 (k0_pay1 x6) (k0_pay2 x7) (k0_pay6 x8 x9 x11) (k0_pay7 x8 x9 x11) (k0_pay9 x0) (k0_pay10 x1) (k0_pay11 x2) (k0_pay12 x3) x4 x5)
  | ⟨3, _⟩ => k0_pay25 (k0_pay1 x6) (k0_pay2 x7) (k0_pay18 (k0_pay1 x6) (k0_pay2 x7) (k0_pay7 x8 x9 x11) (k0_pay8 x8 x9 x11) (k0_pay9 x0) (k0_pay10 x1) (k0_pay11 x2) (k0_pay12 x3) x4 x5) (k0_pay20 (k0_pay1 x6) (k0_pay2 x7) (k0_pay5 x8 x9 x10) (k0_pay9 x0) (k0_pay10 x1) (k0_pay12 x3) x4) (Scalar.ofBits .f32 0x00000000#32)
  | ⟨4, _⟩ => k0_pay26 (k0_pay1 x6) (k0_pay2 x7) (k0_pay18 (k0_pay1 x6) (k0_pay2 x7) (k0_pay7 x8 x9 x11) (k0_pay8 x8 x9 x11) (k0_pay9 x0) (k0_pay10 x1) (k0_pay11 x2) (k0_pay12 x3) x4 x5) (k0_pay20 (k0_pay1 x6) (k0_pay2 x7) (k0_pay5 x8 x9 x10) (k0_pay9 x0) (k0_pay10 x1) (k0_pay12 x3) x4) (Scalar.ofBits .f32 0x00000000#32)
  | ⟨_ + 5, _⟩ => k0_pay27 (k0_pay6 x8 x9 x11) (k0_pay7 x8 x9 x11) (k0_pay14 (k0_pay11 x2)) (k0_pay15 x5) (k0_pay16 (k0_pay1 x6) (k0_pay2 x7) (k0_pay9 x0) (k0_pay10 x1) (k0_pay12 x3) x4)

/-- Casts to the same shape are identities and `0 - x = -x`; the rest is the closed form's own order of operations. -/
theorem outBlk_apply (x0 x1 x2 x3 x4 x5 x6 x7 x8 x9 x10 x11 : Vec Ideal S1024x128 .f32) (k : Fin 6) (j : S1024x128.Idx) :
    outBlk x0 x1 x2 x3 x4 x5 x6 x7 x8 x9 x10 x11 k j
      = Cert.Spec.elemForce k (x6 j) (x7 j) (x8 j) (x9 j) (x10 j) (x11 j) (x0 j) (x1 j) (x2 j) (x3 j) (x4 j) (x5 j) := by
  fin_cases k <;>
  simp only [outBlk, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, shapeCast_self, zsub] <;>
  rfl

end Cert.KernelIdeal.R0V
end
-- ==== Proof.R0Value.lean ====
import proofs.«429766_j12146167513806_2_alg».proof.Proof.R0Body
import proofs.«429766_j12146167513806_2_alg».proof.Proof.R0Pay

noncomputable section

namespace Cert.KernelIdeal.R0V

open Cert.KernelIdeal Cert.KernelIdeal.Gen Cert.KernelIdeal.R0 Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Force component `k` of the element at index `i`, from the twelve argument arrays. -/
def G (k : Fin 6) (c : Dev nD) (i : S16384x128.Idx) : EReal :=
  Cert.Spec.elemForce k (V c main_v42 i) (V c main_v44 i) (V c main_v46 i) (V c main_v48 i) (V c main_v50 i) (V c main_v52 i)
    (V c main_v30 i) (V c main_v32 i) (V c main_v34 i) (V c main_v36 i) (V c main_v38 i) (V c main_v40 i)

/-- All eighteen blocks at `t` sit at the same rows, so component `k` of the result blocks is block `t` of `G k`. -/
theorem blk_eq (k : Fin 6) (c : Dev nD) (t : Fin cfg0.N) :
    outBlk (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) k = ((cfg0.win 12).blk t).view.read (Elt Ideal) (G V k c) := by
  funext j
  rw [outBlk_apply]
  rfl

/-- Block `t` begins at row `1024 t`, column `0`. -/
theorem idx : ∀ t : Fin cfg0.N, win0_12.index t (0 : Fin 2) = t.val ∧ win0_12.index t (1 : Fin 2) = 0 :=
  (by decide +kernel : ∀ t : Fin grid0.N, _)

/-- Row `r` lies in block `r / 1024`: the sixteen blocks tile the array. -/
theorem cover (i : S16384x128.Idx) :
    ∃ t : Fin cfg0.N, (cfg0.win 12).flush t = true ∧ i ∈ ((cfg0.win 12).blk t).view.set := by
  have h0 := idx2_lt0 i
  have h1 := idx2_lt1 i
  obtain ⟨t, ht⟩ : ∃ t : Fin cfg0.N, t.val = (i 0).val / 1024 := ⟨⟨(i 0).val / 1024, by show _ < 16; omega⟩, rfl⟩
  obtain ⟨e0, e1⟩ := idx t
  refine ⟨t, flush0_12 t, ?_⟩
  show i ∈ ((View.whole main_v53_0).slice (win0_12.rect t)).set
  rw [View.set_slice_whole, Rect.mem_set_unit]
  intro a
  match a with
  | ⟨0, _⟩ => show win0_12.index t (0 : Fin 2) * 1024 ≤ (i 0).val ∧ (i 0).val < win0_12.index t (0 : Fin 2) * 1024 + 1024; omega
  | ⟨1, _⟩ => show win0_12.index t (1 : Fin 2) * 128 ≤ (i 1).val ∧ (i 1).val < win0_12.index t (1 : Fin 2) * 128 + 128; omega

theorem out12_apply (c : Dev nD) (p : Fin 16384) (q : Fin 128) :
    ((dat0 (F := Ideal) V c).arrAt 12 cfg0.N : S16384x128.Idx → EReal) (ix2 p q)
      = Cert.Spec.elemForce 0 ((V c main_v42 : S16384x128.Idx → EReal) (ix2 p q)) ((V c main_v44 : S16384x128.Idx → EReal) (ix2 p q)) ((V c main_v46 : S16384x128.Idx → EReal) (ix2 p q)) ((V c main_v48 : S16384x128.Idx → EReal) (ix2 p q)) ((V c main_v50 : S16384x128.Idx → EReal) (ix2 p q)) ((V c main_v52 : S16384x128.Idx → EReal) (ix2 p q)) ((V c main_v30 : S16384x128.Idx → EReal) (ix2 p q)) ((V c main_v32 : S16384x128.Idx → EReal) (ix2 p q)) ((V c main_v34 : S16384x128.Idx → EReal) (ix2 p q)) ((V c main_v36 : S16384x128.Idx → EReal) (ix2 p q)) ((V c main_v38 : S16384x128.Idx → EReal) (ix2 p q)) ((V c main_v40 : S16384x128.Idx → EReal) (ix2 p q)) :=
  congrFun ((dat0 V c).arrAt_eq_of_cover 12 (G V 0 c) (fun t _ => by
    show (cfg0.win 12).cut (grid0.coords t) ((dat0 V c).after 12 t) = _
    rw [after0_12, out0_12, View.canon_unit_zero hz]
    simp only [View.ld_unit_zero (S := S1024x128) hz]
    exact blk_eq V 0 c t) cover) (ix2 p q)

theorem out13_apply (c : Dev nD) (p : Fin 16384) (q : Fin 128) :
    ((dat0 (F := Ideal) V c).arrAt 13 cfg0.N : S16384x128.Idx → EReal) (ix2 p q)
      = Cert.Spec.elemForce 1 ((V c main_v42 : S16384x128.Idx → EReal) (ix2 p q)) ((V c main_v44 : S16384x128.Idx → EReal) (ix2 p q)) ((V c main_v46 : S16384x128.Idx → EReal) (ix2 p q)) ((V c main_v48 : S16384x128.Idx → EReal) (ix2 p q)) ((V c main_v50 : S16384x128.Idx → EReal) (ix2 p q)) ((V c main_v52 : S16384x128.Idx → EReal) (ix2 p q)) ((V c main_v30 : S16384x128.Idx → EReal) (ix2 p q)) ((V c main_v32 : S16384x128.Idx → EReal) (ix2 p q)) ((V c main_v34 : S16384x128.Idx → EReal) (ix2 p q)) ((V c main_v36 : S16384x128.Idx → EReal) (ix2 p q)) ((V c main_v38 : S16384x128.Idx → EReal) (ix2 p q)) ((V c main_v40 : S16384x128.Idx → EReal) (ix2 p q)) :=
  congrFun ((dat0 V c).arrAt_eq_of_cover 13 (G V 1 c) (fun t _ => by
    show (cfg0.win 13).cut (grid0.coords t) ((dat0 V c).after 13 t) = _
    rw [after0_13, out0_13, View.canon_unit_zero hz]
    simp only [View.ld_unit_zero (S := S1024x128) hz]
    exact blk_eq V 1 c t) cover) (ix2 p q)

theorem out14_apply (c : Dev nD) (p : Fin 16384) (q : Fin 128) :
    ((dat0 (F := Ideal) V c).arrAt 14 cfg0.N : S16384x128.Idx → EReal) (ix2 p q)
      = Cert.Spec.elemForce 2 ((V c main_v42 : S16384x128.Idx → EReal) (ix2 p q)) ((V c main_v44 : S16384x128.Idx → EReal) (ix2 p q)) ((V c main_v46 : S16384x128.Idx → EReal) (ix2 p q)) ((V c main_v48 : S16384x128.Idx → EReal) (ix2 p q)) ((V c main_v50 : S16384x128.Idx → EReal) (ix2 p q)) ((V c main_v52 : S16384x128.Idx → EReal) (ix2 p q)) ((V c main_v30 : S16384x128.Idx → EReal) (ix2 p q)) ((V c main_v32 : S16384x128.Idx → EReal) (ix2 p q)) ((V c main_v34 : S16384x128.Idx → EReal) (ix2 p q)) ((V c main_v36 : S16384x128.Idx → EReal) (ix2 p q)) ((V c main_v38 : S16384x128.Idx → EReal) (ix2 p q)) ((V c main_v40 : S16384x128.Idx → EReal) (ix2 p q)) :=
  congrFun ((dat0 V c).arrAt_eq_of_cover 14 (G V 2 c) (fun t _ => by
    show (cfg0.win 14).cut (grid0.coords t) ((dat0 V c).after 14 t) = _
    rw [after0_14, out0_14, View.canon_unit_zero hz]
    simp only [View.ld_unit_zero (S := S1024x128) hz]
    exact blk_eq V 2 c t) cover) (ix2 p q)

theorem out15_apply (c : Dev nD) (p : Fin 16384) (q : Fin 128) :
    ((dat0 (F := Ideal) V c).arrAt 15 cfg0.N : S16384x128.Idx → EReal) (ix2 p q)
      = Cert.Spec.elemForce 3 ((V c main_v42 : S16384x128.Idx → EReal) (ix2 p q)) ((V c main_v44 : S16384x128.Idx → EReal) (ix2 p q)) ((V c main_v46 : S16384x128.Idx → EReal) (ix2 p q)) ((V c main_v48 : S16384x128.Idx → EReal) (ix2 p q)) ((V c main_v50 : S16384x128.Idx → EReal) (ix2 p q)) ((V c main_v52 : S16384x128.Idx → EReal) (ix2 p q)) ((V c main_v30 : S16384x128.Idx → EReal) (ix2 p q)) ((V c main_v32 : S16384x128.Idx → EReal) (ix2 p q)) ((V c main_v34 : S16384x128.Idx → EReal) (ix2 p q)) ((V c main_v36 : S16384x128.Idx → EReal) (ix2 p q)) ((V c main_v38 : S16384x128.Idx → EReal) (ix2 p q)) ((V c main_v40 : S16384x128.Idx → EReal) (ix2 p q)) :=
  congrFun ((dat0 V c).arrAt_eq_of_cover 15 (G V 3 c) (fun t _ => by
    show (cfg0.win 15).cut (grid0.coords t) ((dat0 V c).after 15 t) = _
    rw [after0_15, out0_15, View.canon_unit_zero hz]
    simp only [View.ld_unit_zero (S := S1024x128) hz]
    exact blk_eq V 3 c t) cover) (ix2 p q)

theorem out16_apply (c : Dev nD) (p : Fin 16384) (q : Fin 128) :
    ((dat0 (F := Ideal) V c).arrAt 16 cfg0.N : S16384x128.Idx → EReal) (ix2 p q)
      = Cert.Spec.elemForce 4 ((V c main_v42 : S16384x128.Idx → EReal) (ix2 p q)) ((V c main_v44 : S16384x128.Idx → EReal) (ix2 p q)) ((V c main_v46 : S16384x128.Idx → EReal) (ix2 p q)) ((V c main_v48 : S16384x128.Idx → EReal) (ix2 p q)) ((V c main_v50 : S16384x128.Idx → EReal) (ix2 p q)) ((V c main_v52 : S16384x128.Idx → EReal) (ix2 p q)) ((V c main_v30 : S16384x128.Idx → EReal) (ix2 p q)) ((V c main_v32 : S16384x128.Idx → EReal) (ix2 p q)) ((V c main_v34 : S16384x128.Idx → EReal) (ix2 p q)) ((V c main_v36 : S16384x128.Idx → EReal) (ix2 p q)) ((V c main_v38 : S16384x128.Idx → EReal) (ix2 p q)) ((V c main_v40 : S16384x128.Idx → EReal) (ix2 p q)) :=
  congrFun ((dat0 V c).arrAt_eq_of_cover 16 (G V 4 c) (fun t _ => by
    show (cfg0.win 16).cut (grid0.coords t) ((dat0 V c).after 16 t) = _
    rw [after0_16, out0_16, View.canon_unit_zero hz]
    simp only [View.ld_unit_zero (S := S1024x128) hz]
    exact blk_eq V 4 c t) cover) (ix2 p q)

theorem out17_apply (c : Dev nD) (p : Fin 16384) (q : Fin 128) :
    ((dat0 (F := Ideal) V c).arrAt 17 cfg0.N : S16384x128.Idx → EReal) (ix2 p q)
      = Cert.Spec.elemForce 5 ((V c main_v42 : S16384x128.Idx → EReal) (ix2 p q)) ((V c main_v44 : S16384x128.Idx → EReal) (ix2 p q)) ((V c main_v46 : S16384x128.Idx → EReal) (ix2 p q)) ((V c main_v48 : S16384x128.Idx → EReal) (ix2 p q)) ((V c main_v50 : S16384x128.Idx → EReal) (ix2 p q)) ((V c main_v52 : S16384x128.Idx → EReal) (ix2 p q)) ((V c main_v30 : S16384x128.Idx → EReal) (ix2 p q)) ((V c main_v32 : S16384x128.Idx → EReal) (ix2 p q)) ((V c main_v34 : S16384x128.Idx → EReal) (ix2 p q)) ((V c main_v36 : S16384x128.Idx → EReal) (ix2 p q)) ((V c main_v38 : S16384x128.Idx → EReal) (ix2 p q)) ((V c main_v40 : S16384x128.Idx → EReal) (ix2 p q)) :=
  congrFun ((dat0 V c).arrAt_eq_of_cover 17 (G V 5 c) (fun t _ => by
    show (cfg0.win 17).cut (grid0.coords t) ((dat0 V c).after 17 t) = _
    rw [after0_17, out0_17, View.canon_unit_zero hz]
    simp only [View.ld_unit_zero (S := S1024x128) hz]
    exact blk_eq V 5 c t) cover) (ix2 p q)

end Cert.KernelIdeal.R0V
end
-- ==== Proof.KPad.lean ====
import proofs.«429766_j12146167513806_2_alg».proof.Proof.KGather
import Idealize.ShloMosaic.Lib.ValueIdx
import Idealize.ShloMosaic.Lib.KernelVsHost
import Idealize.ShloMosaic.Lib.Pipeline.Value
import Idealize.ShloMosaic.Lib.StableHlo.Run

set_option maxRecDepth 4076

noncomputable section

open Idealize.ShloMosaic Idealize.ShloMosaic.TcCoe Idealize.SL.Sem Idealize.ShloMosaic.ValueIdx

namespace Cert.KernelIdeal.KPad

open Cert.KernelIdeal Cert.KernelIdeal.Gen Cert.KernelIdeal.GenP Cert.KernelIdeal.KV Cert.KernelIdeal.KGather

-- Row p, column q of the cut is flat position 128 p + q of the padded stream, which lies inside the stream itself.
theorem pad_tile_apply {α : Type} (x : S2000000.Idx → α) (v : S_.Idx → α) (p : Fin 16384) (q : Fin 128)
    (h : 128 * p.val + q.val < 2000000) :
    shapeCast S16384x128 (pad S2097152 ![0] ![97152] ![0] x v pads_S2000000_S2097152_0971520 h_S_)
        shapeCasts_S2097152_S16384x128 (ix2 p q)
      = x (ix1 ⟨128 * p.val + q.val, h⟩) := by
  refine (shapeCast_apply _ shapeCasts_S2097152_S16384x128 (ix2 p q)
    (ix1 (⟨128 * p.val + q.val, by omega⟩ : Fin 2097152)) ?_).trans ?_
  · rw [Shape.rowMajor_val_two, Shape.rowMajor_val_one]
    show 128 * p.val + q.val = p.val * 128 + q.val
    omega
  · refine pad_apply_of_inside _ _ _ x v _ _ _ _ fun a => ?_
    obtain rfl : a = 0 := Subsingleton.elim _ _
    show 128 * p.val + q.val = 0 + (128 * p.val + q.val) * (0 + 1)
    omega

section Stretches
variable (V : Valuation τ sig (Elt Ideal))

section Tiles
variable (p : Fin 16384) (q : Fin 128) (h : 128 * p.val + q.val < 2000000)

theorem tile30 :
    (StableHlo.after hostOps0_9 (StableHlo.after hostOps0_8 V) (Proc.devRef .tc main_v30) : S16384x128.Idx → EReal) (ix2 p q)
      = (V main_v19 : S2000000.Idx → EReal) (ix1 ⟨128 * p.val + q.val, h⟩) := by
  after_results
  exact pad_tile_apply _ _ p q h

theorem tile32 :
    (StableHlo.after hostOps0_11 (StableHlo.after hostOps0_10 V) (Proc.devRef .tc main_v32) : S16384x128.Idx → EReal) (ix2 p q)
      = (V main_v20 : S2000000.Idx → EReal) (ix1 ⟨128 * p.val + q.val, h⟩) := by
  after_results
  exact pad_tile_apply _ _ p q h

theorem tile34 :
    (StableHlo.after hostOps0_13 (StableHlo.after hostOps0_12 V) (Proc.devRef .tc main_v34) : S16384x128.Idx → EReal) (ix2 p q)
      = (V main_v21 : S2000000.Idx → EReal) (ix1 ⟨128 * p.val + q.val, h⟩) := by
  after_results
  exact pad_tile_apply _ _ p q h

theorem tile36 :
    (StableHlo.after hostOps0_15 (StableHlo.after hostOps0_14 V) (Proc.devRef .tc main_v36) : S16384x128.Idx → EReal) (ix2 p q)
      = (V main_v22 : S2000000.Idx → EReal) (ix1 ⟨128 * p.val + q.val, h⟩) := by
  after_results
  exact pad_tile_apply _ _ p q h

theorem tile38 :
    (StableHlo.after hostOps0_17 (StableHlo.after hostOps0_16 V) (Proc.devRef .tc main_v38) : S16384x128.Idx → EReal) (ix2 p q)
      = (V main_v23 : S2000000.Idx → EReal) (ix1 ⟨128 * p.val + q.val, h⟩) := by
  after_results
  exact pad_tile_apply _ _ p q h

theorem tile40 :
    (StableHlo.after hostOps0_19 (StableHlo.after hostOps0_18 V) (Proc.devRef .tc main_v40) : S16384x128.Idx → EReal) (ix2 p q)
      = (V main_v24 : S2000000.Idx → EReal) (ix1 ⟨128 * p.val + q.val, h⟩) := by
  after_results
  exact pad_tile_apply _ _ p q h

theorem tile42 :
    (StableHlo.after hostOps0_21 (StableHlo.after hostOps0_20 V) (Proc.devRef .tc main_v42) : S16384x128.Idx → EReal) (ix2 p q)
      = (V main_v26 : S2000000.Idx → EReal) (ix1 ⟨128 * p.val + q.val, h⟩) := by
  after_results
  exact pad_tile_apply _ _ p q h

theorem tile44 :
    (StableHlo.after hostOps0_23 (StableHlo.after hostOps0_22 V) (Proc.devRef .tc main_v44) : S16384x128.Idx → EReal) (ix2 p q)
      = (V main_v28 : S2000000.Idx → EReal) (ix1 ⟨128 * p.val + q.val, h⟩) := by
  after_results
  exact pad_tile_apply _ _ p q h

theorem tile46 :
    (StableHlo.after hostOps0_25 (StableHlo.after hostOps0_24 V) (Proc.devRef .tc main_v46) : S16384x128.Idx → EReal) (ix2 p q)
      = (V main_arg3 : S2000000.Idx → EReal) (ix1 ⟨128 * p.val + q.val, h⟩) := by
  after_results
  exact pad_tile_apply _ _ p q h

theorem tile48 :
    (StableHlo.after hostOps0_27 (StableHlo.after hostOps0_26 V) (Proc.devRef .tc main_v48) : S16384x128.Idx → EReal) (ix2 p q)
      = (V main_arg4 : S2000000.Idx → EReal) (ix1 ⟨128 * p.val + q.val, h⟩) := by
  after_results
  exact pad_tile_apply _ _ p q h

theorem tile50 :
    (StableHlo.after hostOps0_29 (StableHlo.after hostOps0_28 V) (Proc.devRef .tc main_v50) : S16384x128.Idx → EReal) (ix2 p q)
      = (V main_arg5 : S2000000.Idx → EReal) (ix1 ⟨128 * p.val + q.val, h⟩) := by
  after_results
  exact pad_tile_apply _ _ p q h

theorem tile52 :
    (StableHlo.after hostOps0_31 (StableHlo.after hostOps0_30 V) (Proc.devRef .tc main_v52) : S16384x128.Idx → EReal) (ix2 p q)
      = (V main_arg6 : S2000000.Idx → EReal) (ix1 ⟨128 * p.val + q.val, h⟩) := by
  after_results
  exact pad_tile_apply _ _ p q h

end Tiles

theorem col26 (e : Fin 2000000) :
    (StableHlo.after hostOps0_7 V (Proc.devRef .tc main_v26) : S2000000.Idx → EReal) (ix1 e)
      = (V main_arg7 : S2000000x3.Idx → EReal) (ix2 e (0 : Fin 3)) := by
  after_results
  exact col_apply _ 0 _ _ e

theorem col28 (e : Fin 2000000) :
    (StableHlo.after hostOps0_7 V (Proc.devRef .tc main_v28) : S2000000.Idx → EReal) (ix1 e)
      = (V main_arg7 : S2000000x3.Idx → EReal) (ix2 e (2 : Fin 3)) := by
  after_results
  exact col_apply _ 2 _ _ e

end Stretches

section Twelve
variable (m : (ℓ : Loc nD τ sig) → Buf (Elt Ideal) ℓ) (c : Dev nD)

variable (p : Fin 16384) (q : Fin 128) (h : 128 * p.val + q.val < 2000000)

theorem in30 : (V32 m c main_v30 : S16384x128.Idx → EReal) (ix2 p q)
    = (V7 m c main_v19 : S2000000.Idx → EReal) (ix1 ⟨128 * p.val + q.val, h⟩) :=
  (congrFun (carry m c 10 main_v30 22 (by decide)) _).trans <| (tile30 (V8 m c) p q h).trans <|
    congrFun (carry m c 7 main_v19 1 (by decide)) _

theorem in32 : (V32 m c main_v32 : S16384x128.Idx → EReal) (ix2 p q)
    = (V7 m c main_v20 : S2000000.Idx → EReal) (ix1 ⟨128 * p.val + q.val, h⟩) :=
  (congrFun (carry m c 12 main_v32 20 (by decide)) _).trans <| (tile32 (V10 m c) p q h).trans <|
    congrFun (carry m c 7 main_v20 3 (by decide)) _

theorem in34 : (V32 m c main_v34 : S16384x128.Idx → EReal) (ix2 p q)
    = (V7 m c main_v21 : S2000000.Idx → EReal) (ix1 ⟨128 * p.val + q.val, h⟩) :=
  (congrFun (carry m c 14 main_v34 18 (by decide)) _).trans <| (tile34 (V12 m c) p q h).trans <|
    congrFun (carry m c 7 main_v21 5 (by decide)) _

theorem in36 : (V32 m c main_v36 : S16384x128.Idx → EReal) (ix2 p q)
    = (V7 m c main_v22 : S2000000.Idx → EReal) (ix1 ⟨128 * p.val + q.val, h⟩) :=
  (congrFun (carry m c 16 main_v36 16 (by decide)) _).trans <| (tile36 (V14 m c) p q h).trans <|
    congrFun (carry m c 7 main_v22 7 (by decide)) _

theorem in38 : (V32 m c main_v38 : S16384x128.Idx → EReal) (ix2 p q)
    = (V7 m c main_v23 : S2000000.Idx → EReal) (ix1 ⟨128 * p.val + q.val, h⟩) :=
  (congrFun (carry m c 18 main_v38 14 (by decide)) _).trans <| (tile38 (V16 m c) p q h).trans <|
    congrFun (carry m c 7 main_v23 9 (by decide)) _

theorem in40 : (V32 m c main_v40 : S16384x128.Idx → EReal) (ix2 p q)
    = (V7 m c main_v24 : S2000000.Idx → EReal) (ix1 ⟨128 * p.val + q.val, h⟩) :=
  (congrFun (carry m c 20 main_v40 12 (by decide)) _).trans <| (tile40 (V18 m c) p q h).trans <|
    congrFun (carry m c 7 main_v24 11 (by decide)) _

theorem in42 : (V32 m c main_v42 : S16384x128.Idx → EReal) (ix2 p q)
    = dirs m c (ix2 (⟨128 * p.val + q.val, h⟩ : Fin 2000000) (0 : Fin 3)) :=
  (congrFun (carry m c 22 main_v42 10 (by decide)) _).trans <| (tile42 (V20 m c) p q h).trans <|
    (congrFun (carry m c 8 main_v26 12 (by decide)) _).trans <|
      (col26 (V7 m c) _).trans <| congrFun (carry m c 0 main_arg7 7 (by decide)) _

theorem in44 : (V32 m c main_v44 : S16384x128.Idx → EReal) (ix2 p q)
    = dirs m c (ix2 (⟨128 * p.val + q.val, h⟩ : Fin 2000000) (2 : Fin 3)) :=
  (congrFun (carry m c 24 main_v44 8 (by decide)) _).trans <| (tile44 (V22 m c) p q h).trans <|
    (congrFun (carry m c 8 main_v28 14 (by decide)) _).trans <|
      (col28 (V7 m c) _).trans <| congrFun (carry m c 0 main_arg7 7 (by decide)) _

theorem in46 : (V32 m c main_v46 : S16384x128.Idx → EReal) (ix2 p q)
    = len m c (ix1 (⟨128 * p.val + q.val, h⟩ : Fin 2000000)) :=
  (congrFun (carry m c 26 main_v46 6 (by decide)) _).trans <| (tile46 (V24 m c) p q h).trans <|
    congrFun (carry m c 0 main_arg3 24 (by decide)) _

theorem in48 : (V32 m c main_v48 : S16384x128.Idx → EReal) (ix2 p q)
    = pE m c (ix1 (⟨128 * p.val + q.val, h⟩ : Fin 2000000)) :=
  (congrFun (carry m c 28 main_v48 4 (by decide)) _).trans <| (tile48 (V26 m c) p q h).trans <|
    congrFun (carry m c 0 main_arg4 26 (by decide)) _

theorem in50 : (V32 m c main_v50 : S16384x128.Idx → EReal) (ix2 p q)
    = pA m c (ix1 (⟨128 * p.val + q.val, h⟩ : Fin 2000000)) :=
  (congrFun (carry m c 30 main_v50 2 (by decide)) _).trans <| (tile50 (V28 m c) p q h).trans <|
    congrFun (carry m c 0 main_arg5 28 (by decide)) _

theorem in52 : (V32 m c main_v52 : S16384x128.Idx → EReal) (ix2 p q)
    = pI m c (ix1 (⟨128 * p.val + q.val, h⟩ : Fin 2000000)) :=
  (tile52 (V30 m c) p q h).trans <|
    congrFun (carry m c 0 main_arg6 30 (by decide)) _

end Twelve

end Cert.KernelIdeal.KPad

end
-- ==== Proof.KUpd.lean ====
import proofs.«429766_j12146167513806_2_alg».proof.Proof.FrameAsm
import proofs.«429766_j12146167513806_2_alg».proof.Proof.R0Value
import proofs.«429766_j12146167513806_2_alg».proof.Proof.KGather
import proofs.«429766_j12146167513806_2_alg».proof.Proof.KPad
import proofs.«429766_j12146167513806_2_alg».proof.Proof.KMid

noncomputable section

open Idealize.ShloMosaic Idealize.ShloMosaic.TcCoe Idealize.SL.Sem Idealize.ShloMosaic.ValueIdx

namespace Cert.KernelIdeal.KUpd

open Cert.KernelIdeal Cert.KernelIdeal.Gen Cert.KernelIdeal.GenP Cert.KernelIdeal.KV

section
variable (m : (ℓ : Loc nD τ sig) → Buf (Elt Ideal) ℓ) (c : Dev nD)

-- At flat position `i = 128 p + q` each of the twelve input arrays holds element `i`'s own datum.
theorem force_at (hr : InRange m c) (p : Fin 16384) (q : Fin 128) (i : Fin 2000000) (hi : 128 * p.val + q.val = i.val)
    (k : Fin 6) :
    Cert.Spec.elemForce k
        (V32 m c main_v42 (ix2 p q)) (V32 m c main_v44 (ix2 p q))
        (V32 m c main_v46 (ix2 p q)) (V32 m c main_v48 (ix2 p q))
        (V32 m c main_v50 (ix2 p q)) (V32 m c main_v52 (ix2 p q))
        (V32 m c main_v30 (ix2 p q)) (V32 m c main_v32 (ix2 p q))
        (V32 m c main_v34 (ix2 p q)) (V32 m c main_v36 (ix2 p q))
        (V32 m c main_v38 (ix2 p q)) (V32 m c main_v40 (ix2 p q))
      = Cert.Spec.force (pred m c) (uc m c) (th m c) (len m c) (pE m c) (pA m c) (pI m c) (dirs m c) (conn m c) k i := by
  have h : 128 * p.val + q.val < 2000000 := hi ▸ i.isLt
  obtain rfl : i = ⟨_, h⟩ := Fin.ext hi.symm
  rw [KPad.in42 m c p q h, KPad.in44 m c p q h, KPad.in46 m c p q h, KPad.in48 m c p q h, KPad.in50 m c p q h,
    KPad.in52 m c p q h, KPad.in30 m c p q h, KPad.in32 m c p q h, KPad.in34 m c p q h, KPad.in36 m c p q h,
    KPad.in38 m c p q h, KPad.in40 m c p q h, KGather.gat19 m c hr, KGather.gat20 m c hr, KGather.gat21 m c hr,
    KGather.gat22 m c hr, KGather.gat23 m c hr, KGather.gat24 m c hr]
  rfl

theorem outA_apply (hr : InRange m c) (p : Fin 16384) (q : Fin 128) (i : Fin 2000000) (hi : 128 * p.val + q.val = i.val)
    (k : Fin 3) :
    KMid.outA (Asm.outsA m) c k (ix2 p q)
      = Cert.Spec.force (pred m c) (uc m c) (th m c) (len m c) (pE m c) (pA m c) (pI m c) (dirs m c) (conn m c)
          ⟨k.val, by omega⟩ i :=
  match k with
  | ⟨0, _⟩ => (congrFun (Asm.W33_arr m c 12) _).trans ((R0V.out12_apply (Asm.Ve0 m) c p q).trans (force_at m c hr p q i hi 0))
  | ⟨1, _⟩ => (congrFun (Asm.W33_arr m c 13) _).trans ((R0V.out13_apply (Asm.Ve0 m) c p q).trans (force_at m c hr p q i hi 1))
  | ⟨2, _⟩ => (congrFun (Asm.W33_arr m c 14) _).trans ((R0V.out14_apply (Asm.Ve0 m) c p q).trans (force_at m c hr p q i hi 2))

theorem outB_apply (hr : InRange m c) (p : Fin 16384) (q : Fin 128) (i : Fin 2000000) (hi : 128 * p.val + q.val = i.val)
    (k : Fin 3) :
    KMid.outB (Asm.outsA m) c k (ix2 p q)
      = Cert.Spec.force (pred m c) (uc m c) (th m c) (len m c) (pE m c) (pA m c) (pI m c) (dirs m c) (conn m c)
          ⟨k.val + 3, by omega⟩ i :=
  match k with
  | ⟨0, _⟩ => (congrFun (Asm.W33_arr m c 15) _).trans ((R0V.out15_apply (Asm.Ve0 m) c p q).trans (force_at m c hr p q i hi 3))
  | ⟨1, _⟩ => (congrFun (Asm.W33_arr m c 16) _).trans ((R0V.out16_apply (Asm.Ve0 m) c p q).trans (force_at m c hr p q i hi 4))
  | ⟨2, _⟩ => (congrFun (Asm.W33_arr m c 17) _).trans ((R0V.out17_apply (Asm.Ve0 m) c p q).trans (force_at m c hr p q i hi 5))

end

-- Row `a` is element `a` at its first node below 2000000, and element `a - 2000000` at its second from there on.
theorem upd_eq (m : (ℓ : Loc nD τ sig) → Buf (Elt Ideal) ℓ) (c : Dev nD) (hr : InRange m c) :
    (V34 m (Asm.outsA m) c main_v74 : S4000000x3.Idx → EReal)
      = Cert.Spec.updates (pred m c) (uc m c) (th m c) (len m c) (pE m c) (pA m c) (pI m c) (dirs m c) (conn m c) := by
  funext y
  obtain ⟨a, k, rfl⟩ : ∃ (a : Fin 4000000) (k : Fin 3), y = ix2 a k := ⟨y 0, y 1, eq_ix2 y⟩
  unfold Cert.Spec.updates
  by_cases hlt : a.val < 2000000
  · exact (KMid.upd_lo m _ c a hlt k).trans ((outA_apply m c hr _ _ ⟨a.val, hlt⟩
      (by show 128 * (a.val / 128) + a.val % 128 = a.val; omega) k).trans (Eq.symm (dif_pos hlt)))
  · exact (KMid.upd_hi m _ c a (Nat.le_of_not_lt hlt) k).trans ((outB_apply m c hr _ _ ⟨a.val - 2000000, by omega⟩
      (by show 128 * ((a.val - 2000000) / 128) + (a.val - 2000000) % 128 = a.val - 2000000; omega) k).trans (Eq.symm (dif_neg hlt)))

end Cert.KernelIdeal.KUpd

end
-- ==== Proof.SumBridge.lean ====
import Idealize.ShloMosaic.PureOps.Ideal
import Idealize.ShloMosaic.PureOps.Ideal.Laws
import Idealize.ShloMosaic.Lib.ValueIdx
import proofs.«429766_j12146167513806_2_alg».proof.Proof.Spec

noncomputable section

open scoped BigOperators
open Idealize.ShloMosaic Idealize.ShloMosaic.ValueIdx

namespace Cert.SumBridge

-- (a, b) ↦ n a + b is a bijection of Fin m × Fin n with the naturals below m n
theorem sum_rows {M : Type*} [AddCommMonoid M] (m n : ℕ) (G : ℕ → M) :
    ∑ a : Fin m, ∑ b : Fin n, G (n * a.val + b.val) = ∑ f ∈ Finset.range (m * n), G f := by
  rw [← Fin.sum_univ_eq_sum_range, ← Equiv.sum_comp finProdFinEquiv, Fintype.sum_prod_type]
  exact Finset.sum_congr rfl fun a _ => Finset.sum_congr rfl fun b _ => congrArg G (add_comm _ _)

def flat (X : Cert.Spec.SN3.Idx → EReal) (f : ℕ) : EReal :=
  if h : f < 3000000 then X (ix2 (⟨f / 3, by omega⟩ : Fin 1000000) (⟨f % 3, by omega⟩ : Fin 3)) else 0

theorem flat_at (X : Cert.Spec.SN3.Idx → EReal) (n : Fin 1000000) (k : Fin 3) :
    flat X (3 * n.val + k.val) = X (ix2 n k) :=
  (dif_pos (by omega)).trans (congrArg X (congrArg₂ ix2 (Fin.ext (by show (3 * n.val + k.val) / 3 = n.val; omega))
    (Fin.ext (by show (3 * n.val + k.val) % 3 = k.val; omega))))

-- an array that reads the flat layout at n a + b has the flat layout's sum of squares over the first m n positions
theorem sum_flat {m n : ℕ} (X : Cert.Spec.SN3.Idx → EReal) (A : (⟨2, ![m, n]⟩ : Shape).Idx → EReal)
    (hA : ∀ a b, A (ix2 a b) = flat X (n * a.val + b.val)) :
    ∑ j, A j * A j = ∑ f ∈ Finset.range (m * n), flat X f * flat X f :=
  (sum_idx2 _).trans ((Finset.sum_congr rfl fun a _ => Finset.sum_congr rfl fun b _ => by rw [hA]).trans
    (sum_rows m n fun f => flat X f * flat X f))

-- the positions past 3000000 contribute 0 * 0
theorem sum_retiled (X : Cert.Spec.SN3.Idx → EReal) (P : (⟨2, ![24576, 128]⟩ : Shape).Idx → EReal)
    (hP : ∀ (p : Fin 24576) (q : Fin 128), P (ix2 p q) = flat X (128 * p.val + q.val)) :
    ∑ j, P j * P j = ∑ i, X i * X i := by
  rw [sum_flat X P hP, sum_flat X X fun n k => (flat_at X n k).symm]
  refine (Finset.sum_subset (Finset.range_subset_range.mpr (by norm_num)) fun f _ hf => ?_).symm
  rw [flat, dif_neg fun h => hf (Finset.mem_range.mpr h), zero_mul]

abbrev S_ : Shape := ⟨0, ![]⟩

theorem hostDivf_apply {s : Shape} (a b : FVec Ideal s .f32) (i : s.Idx) :
    Host.divf a b i = Ideal.div (a i) (b i) := rfl

theorem ref_loss (R Fm : Cert.Spec.SN3.Idx → EReal) (hred : Cert.Spec.SN3.ReducesTo [0, 1] S_) (hpos : 0 < S_.numel) :
    Host.divf (F := Ideal) (φ := .f32)
        (Host.reduceAdd (F := Ideal) (φ := .f32) (mulf R R) (constant S_ .f32 0x00000000#32) hred hpos)
        (maximumf (Host.reduceAdd (F := Ideal) (φ := .f32) (mulf Fm Fm) (constant S_ .f32 0x00000000#32) hred hpos)
          (constant S_ .f32 0x0DA24260#32))
      = fun _ => Cert.Spec.lossOf R Fm := by
  funext y
  have h : ∀ A : Cert.Spec.SN3.Idx → EReal,
      Host.reduceAdd (F := Ideal) (φ := .f32) (mulf A A) (constant S_ .f32 0x00000000#32) hred hpos y = ∑ i, A i * A i :=
    fun A => (Ideal.hostReduceAdd_total hred (fun b => b.elim0) _ _ y).trans
      (by rw [constant_apply, Ideal.ofBits_zero_f32, zero_add]; rfl)
  rw [hostDivf_apply, maximumf_apply, constant_apply, h R, h Fm]
  rfl

end Cert.SumBridge

end
-- ==== Proof.KResult.lean ====
import proofs.«429766_j12146167513806_2_alg».proof.Proof.FrameAsm
import proofs.«429766_j12146167513806_2_alg».proof.Proof.R1Value
import proofs.«429766_j12146167513806_2_alg».proof.Proof.KMid
import proofs.«429766_j12146167513806_2_alg».proof.Proof.KUpd
import proofs.«429766_j12146167513806_2_alg».proof.Proof.SumBridge

noncomputable section

open Idealize.ShloMosaic Idealize.ShloMosaic.TcCoe Idealize.SL.Sem Idealize.ShloMosaic.ValueIdx

namespace Cert.KernelIdeal.KRes

open Cert.KernelIdeal Cert.KernelIdeal.Gen Cert.KernelIdeal.GenP Cert.KernelIdeal.KV Cert.KernelIdeal.KMid

variable (m : (ℓ : Loc nD τ sig) → Buf (Elt Ideal) ℓ) (c : Dev nD)

def residOf (upd : S4000000x3.Idx → EReal) : S1000000x3.Idx → EReal :=
  mulf (subf (Host.scatterAdd scatter_S1000000x3_S4000000x1_S4000000x3_1_0_0_1
      (broadcastInDim S1000000x3 ![] bcast_S_S1000000x3 (constant (F := Ideal) S_ .f32 0x00000000#32))
      (broadcastInDim S4000000x1 ![0] bcast_S4000000_S4000000x1_0
        (concatenate S4000000 0 [⟨S2000000, nA m c⟩, ⟨S2000000, nB m c⟩] concatenates_S2000000_S2000000_S4000000_d0))
      upd) (fext m c)) (maskT m c)

-- the quotient of the two sums of squares, neither changed by the flat zero-extended re-tiling
theorem kernel_result (m : (ℓ : Loc nD τ sig) → Buf (Elt Ideal) ℓ) (c : Dev nD) (hr : InRange m c) :
    (V40 m (Asm.outs m) c main_v96 : S_.Idx → EReal)
      = fun _ => Cert.Spec.lossOf (residOf m c (Cert.Spec.updates (pred m c) (uc m c) (th m c) (len m c) (pE m c) (pA m c) (pI m c) (dirs m c) (conn m c)))
          (mulf (F := Ideal) (φ := .f32) (fext m c) (maskT m c)) := by
  refine (KMid.res_eq m (Asm.outs m) c).trans (funext fun _ => ?_)
  refine (congrFun ((Asm.outs_39 m main_v95 c).trans ((Asm.W39_arr m c 2).trans (R1V.final_out (Asm.Ve1 m) c))) _).trans ?_
  rw [← (KMid.resid_eq m (Asm.outsA m) c).trans (congrArg (residOf m c) (KUpd.upd_eq m c hr)), ← KMid.fmask_eq m (Asm.outsA m) c]
  exact congrArg₂ Ideal.div (Cert.SumBridge.sum_retiled _ _ (KMid.r2_apply m (Asm.outsA m) c))
    (congrArg₂ max (Cert.SumBridge.sum_retiled _ _ (KMid.f2_apply m (Asm.outsA m) c)) rfl)

end Cert.KernelIdeal.KRes

end
-- ==== Proof.GatherRow.lean ====
import proofs.«429766_j12146167513806_2_alg».proof.Proof.Gen.ReferenceIdeal
import Idealize.ShloMosaic.Lib.ValueIdx
import Idealize.ShloMosaic.Lib.StableHlo.Predicate

noncomputable section

namespace Cert.ReferenceIdeal.GatherRow

open Cert.ReferenceIdeal
open Idealize.ShloMosaic Idealize.ShloMosaic.ValueIdx
open Idealize.ShloMosaic.StableHlo.Predicate (ixP bcast_col1 toInt_ofNat_small)
open Cert.ReferenceIdeal.Facts₀

variable [Facts₀]

theorem ofFin_eq_ix1 {n : Nat} (k : Fin n) : (Shape.Idx.ofFin k : (⟨1, ![n]⟩ : Shape).Idx) = ix1 k := by
  funext a
  match a with
  | ⟨0, _⟩ => exact Fin.ext rfl

-- A nonnegative word fails the sign test, so the select keeps it.
theorem wrap_apply (idx : IVec S2000000 32) (j : S2000000.Idx) (h0 : 0 ≤ (idx j).toInt) :
    select (cmpi .slt idx (broadcastInDim S2000000 ![] bcast_S_S2000000 (constantI S_ 32 0#32)))
      (addi idx (broadcastInDim S2000000 ![] bcast_S_S2000000 (constantI S_ 32 1000000#32))) idx j = idx j := by
  have hz : IntOp.cmpi .slt (idx j) (0#32) = 0#1 := eq_zero_of_ne_one (by
    rw [IntOp.cmpi_slt, toInt_ofNat_small 0 (by norm_num)]
    push_cast; omega)
  show Scalar.select (IntOp.cmpi .slt (idx j) (0#32)) (IntOp.addi (idx j) (1000000#32)) (idx j) = idx j
  rw [hz, select_zero]

theorem gather_rows {α : Type} {w : Nat} (d : GatherDims S1000000x3 S2000000x1 S2000000x3)
    (hoff : d.offsetDims = [1]) (hcoll : d.collapsedSliceDims = [0]) (hob : d.operandBatchingDims = [])
    (hsim : d.startIndexMap = [0]) (hivd : d.indexVectorDim = 1)
    (x : S1000000x3.Idx → α) (idx : IVec S2000000x1 w) (p : Fin 2000000) (q : Fin 3) :
    Host.gather d x idx (ix2 p q)
      = x (ix2 (⟨min (idx (ixP p)).toInt.toNat (1000000 - 1), by omega⟩ : Fin 1000000) q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsi : d.siIdx (ix2 p q) ⟨List.idxOf (0 : Fin 2) d.startIndexMap, List.idxOf_lt_length_iff.2 hm⟩ = ixP p := by
      funext b
      match b with
      | ⟨0, _⟩ =>
        unfold GatherDims.siIdx
        rw [dif_neg (by rw [hivd]; exact Nat.zero_ne_one)]
        unfold GatherDims.siCoord
        apply Fin.ext
        simp only [Fin.val_cast]
        exact congrArg (fun z : Fin 2 => ((ix2 p q) z).val) ((List.getElem_of_eq
          (show d.batchDims = [0] by show S2000000x3.kept d.offsetDims = [0]; rw [hoff]; decide) _).trans (List.getElem_singleton _))
      | ⟨1, _⟩ =>
        unfold GatherDims.siIdx
        rw [dif_pos (by rw [hivd])]
        apply Fin.ext
        show List.idxOf (0 : Fin 2) d.startIndexMap = 0
        rw [hsim]; simp
    show d.start (ix2 p q) idx 0 + d.batchCoord (ix2 p q) 0 + d.offCoord (ix2 p q) 0
      = min (idx (ixP p)).toInt.toNat (1000000 - 1)
    rw [GatherDims.batchCoord_eq_zero _ _ _ (hb 0), GatherDims.offCoord_eq_zero _ _ _ hk]
    unfold GatherDims.start
    rw [dif_pos hm, hsi, d.slice_collapsed 0 (by rw [hcoll]; exact List.mem_singleton.mpr rfl)]
    rfl
  | ⟨1, _⟩ =>
    have hk : (1 : Fin 2) ∈ d.sKept := by
      rw [GatherDims.mem_sKept, hcoll]; exact ⟨by decide, hb 1⟩
    show d.start (ix2 p q) idx 1 + d.batchCoord (ix2 p q) 1 + d.offCoord (ix2 p q) 1 = q.val
    rw [GatherDims.batchCoord_eq_zero _ _ _ (hb 1), Nat.add_zero]
    unfold GatherDims.start GatherDims.offCoord
    rw [dif_neg (by rw [hsim]; decide), dif_pos hk, Nat.zero_add]
    exact congrArg (fun z : Fin 2 => ((ix2 p q) z).val) ((List.getElem_of_eq hoff _).trans (List.getElem_singleton _))

-- In range neither the wrap nor the clamp moves the word: the gather reads the table's row at it.
theorem gatherRow_at (x : FVec Ideal S1000000x3 .f32) (idx : IVec S2000000 32) (e : Fin 2000000) (k : Fin 3)
    (w : BitVec 32) (hw : idx (ix1 e) = w) (h : 0 ≤ w.toInt ∧ w.toInt < 1000000) :
    Host.gather gather_S1000000x3_S2000000x1_S2000000x3_1_0_n_n_0_1_13 x
      (broadcastInDim S2000000x1 ![0] bcast_S2000000_S2000000x1_0
        (select (cmpi .slt idx (broadcastInDim S2000000 ![] bcast_S_S2000000 (constantI S_ 32 0#32)))
          (addi idx (broadcastInDim S2000000 ![] bcast_S_S2000000 (constantI S_ 32 1000000#32))) idx)) (ix2 e k)
      = x (ix2 (⟨min w.toInt.toNat 999999, by omega⟩ : Fin 1000000) k) := by
  subst hw
  refine (gather_rows _ rfl rfl rfl rfl rfl x _ e k).trans (congrArg (fun r => x (ix2 r k)) (Fin.ext ?_))
  show min _ (1000000 - 1) = min _ 999999
  rw [bcast_col1, ofFin_eq_ix1, wrap_apply idx (ix1 e) h.1]

end Cert.ReferenceIdeal.GatherRow

end
-- ==== Proof.RefUpd.lean ====
import proofs.«429766_j12146167513806_2_alg».proof.Proof.RefRunDefs
import proofs.«429766_j12146167513806_2_alg».proof.Proof.Spec
import proofs.«429766_j12146167513806_2_alg».proof.Proof.GatherRow
import Idealize.ShloMosaic.Lib.ValueIdx
import Idealize.ShloMosaic.Lib.Pipeline.Value
import Idealize.ShloMosaic.Lib.ValueLayout
import Idealize.ShloMosaic.Lib.StableHlo.Predicate

noncomputable section

namespace Cert.ReferenceIdeal.RefUpd

open Cert.ReferenceIdeal Cert.ReferenceIdeal.Gen Cert.ReferenceIdeal.Value Idealize.ShloMosaic Idealize.ShloMosaic.TcCoe Idealize.ShloMosaic.ValueIdx
open Idealize.ShloMosaic.StableHlo.Predicate (ixP ij bcast_col1 bcast_cols)

section Layout

variable {α : Type}

theorem col_apply {R C : Nat} (o : Nat) (ho : o < C) (X : (⟨2, ![R, C]⟩ : Shape).Idx → α)
    (h : (⟨2, ![R, C]⟩ : Shape).Slices ![0, o] ⟨2, ![R, 1]⟩)
    (h' : (⟨2, ![R, 1]⟩ : Shape).ShapeCasts ⟨1, ![R]⟩) (e : Fin R) :
    shapeCast ⟨1, ![R]⟩ (extractStridedSlice ⟨2, ![R, 1]⟩ ![0, o] X h) h' (ix1 e) = X (ix2 e ⟨o, ho⟩) := by
  refine (shapeCast_apply _ h' (ix1 e) (ix2 e (0 : Fin 1)) ?_).trans (slice2_axis1_apply o X h e (0 : Fin 1) ⟨o, ho⟩ rfl)
  rw [Shape.rowMajor_val_two, Shape.rowMajor_val_one]
  show e.val * 1 + 0 = e.val
  omega

theorem cols3_apply {R : Nat} (G : Fin 3 → Fin R → α) (f0 f1 f2 : (⟨1, ![R]⟩ : Shape).Idx → α)
    (h0 : ∀ e, f0 (ix1 e) = G 0 e) (h1 : ∀ e, f1 (ix1 e) = G 1 e) (h2 : ∀ e, f2 (ix1 e) = G 2 e)
    (hb : (⟨1, ![R]⟩ : Shape).BroadcastsInDim ⟨2, ![R, 1]⟩ ![0])
    (h : Shape.Concatenates [(⟨2, ![R, 1]⟩ : Shape), ⟨2, ![R, 1]⟩, ⟨2, ![R, 1]⟩] ⟨2, ![R, 3]⟩ 1) (e : Fin R) (k : Fin 3) :
    concatenate ⟨2, ![R, 3]⟩ 1 [⟨⟨2, ![R, 1]⟩, broadcastInDim ⟨2, ![R, 1]⟩ ![0] hb f0⟩,
      ⟨⟨2, ![R, 1]⟩, broadcastInDim ⟨2, ![R, 1]⟩ ![0] hb f1⟩, ⟨⟨2, ![R, 1]⟩, broadcastInDim ⟨2, ![R, 1]⟩ ![0] hb f2⟩] h (ix2 e k)
      = G k e := by
  refine (concatenate_ofFn_unit_apply (t := ⟨2, ![R, 3]⟩) 1 (fun n => broadcastInDim ⟨2, ![R, 1]⟩ ![0] hb (![f0, f1, f2] n))
    h rfl rfl (ix2 e k) k rfl (ixP e) fun b hb' => ?_).trans ((bcast_col1 hb _ e).trans ?_)
  · match b with
    | ⟨0, _⟩ => rfl
    | ⟨1, _⟩ => exact absurd rfl hb'
  · rw [GatherRow.ofFin_eq_ix1]
    match k with
    | ⟨0, _⟩ => exact h0 e
    | ⟨1, _⟩ => exact h1 e
    | ⟨2, _⟩ => exact h2 e

abbrev cols3 (f0 f1 f2 : S2000000.Idx → α) : S2000000x3.Idx → α :=
  concatenate S2000000x3 1 [⟨S2000000x1, broadcastInDim S2000000x1 ![0] bcast_S2000000_S2000000x1_0 f0⟩,
    ⟨S2000000x1, broadcastInDim S2000000x1 ![0] bcast_S2000000_S2000000x1_0 f1⟩,
    ⟨S2000000x1, broadcastInDim S2000000x1 ![0] bcast_S2000000_S2000000x1_0 f2⟩]
    concatenates_S2000000x1_S2000000x1_S2000000x1_S2000000x3_d1

theorem blocks_apply (F : Fin 6 → Fin 2000000 → α) (f0 f1 f2 g0 g1 g2 : S2000000.Idx → α)
    (h0 : ∀ e, f0 (ix1 e) = F 0 e) (h1 : ∀ e, f1 (ix1 e) = F 1 e) (h2 : ∀ e, f2 (ix1 e) = F 2 e)
    (h3 : ∀ e, g0 (ix1 e) = F 3 e) (h4 : ∀ e, g1 (ix1 e) = F 4 e) (h5 : ∀ e, g2 (ix1 e) = F 5 e)
    (r : Fin 4000000) (k : Fin 3) :
    concatenate S4000000x3 0 [⟨S2000000x3, cols3 f0 f1 f2⟩, ⟨S2000000x3, cols3 g0 g1 g2⟩]
        concatenates_S2000000x3_S2000000x3_S4000000x3_d0 (ix2 r k)
      = if h : r.val < 2000000 then F ⟨k.val, Nat.lt_trans k.isLt (by decide)⟩ ⟨r.val, h⟩
        else F ⟨k.val + 3, Nat.add_lt_add_right k.isLt 3⟩ ⟨r.val - 2000000, by have := r.isLt; omega⟩ := by
  split
  · next h =>
    exact (concatenate_pair_apply_left 0 (cols3 f0 f1 f2) (cols3 g0 g1 g2) _ (ix2 r k) rfl (ix2 (⟨r.val, h⟩ : Fin 2000000) k)
        fun b => match b with | ⟨0, _⟩ => rfl | ⟨1, _⟩ => rfl).trans
      (cols3_apply (fun k e => F ⟨k.val, Nat.lt_trans k.isLt (by decide)⟩ e) f0 f1 f2 h0 h1 h2 _ _ _ k)
  · next h =>
    exact (concatenate_pair_apply_right 0 (cols3 f0 f1 f2) (cols3 g0 g1 g2) _ (ix2 r k) rfl rfl
        (ix2 (⟨r.val - 2000000, by have := r.isLt; omega⟩ : Fin 2000000) k)
        (fun b hb => match b with | ⟨0, _⟩ => absurd rfl hb | ⟨1, _⟩ => rfl)
        (by show r.val - 2000000 + 2000000 = r.val; omega)).trans
      (cols3_apply (fun k e => F ⟨k.val + 3, Nat.add_lt_add_right k.isLt 3⟩ e) g0 g1 g2 h3 h4 h5 _ _ _ k)

end Layout

-- Lets a stream that unfolds to the closed form be compared with the specification operand by operand.
theorem stream_eq {k : Fin 6} {X c s L E A I a0 a1 a2 b0 b1 b2 c' s' a0' a1' a2' b0' b1' b2' : EReal}
    (hX : X = Cert.Spec.elemForce k c s L E A I a0 a1 a2 b0 b1 b2) (hc : c = c') (hs : s = s')
    (h0 : a0 = a0') (h1 : a1 = a1') (h2 : a2 = a2') (h3 : b0 = b0') (h4 : b1 = b1') (h5 : b2 = b2') :
    X = Cert.Spec.elemForce k c' s' L E A I a0' a1' a2' b0' b1' b2' := by
  rw [hX, hc, hs, h0, h1, h2, h3, h4, h5]

section AtIdeal

variable (V0 : Valuation τ sig (Elt Ideal))

abbrev pred : Cert.Spec.SN3.Idx → EReal := V0 (Proc.devRef .tc main_arg0)
abbrev uc : Cert.Spec.S1.Idx → EReal := V0 (Proc.devRef .tc main_arg1)
abbrev th : Cert.Spec.S1.Idx → EReal := V0 (Proc.devRef .tc main_arg2)
abbrev len : Cert.Spec.SE.Idx → EReal := V0 (Proc.devRef .tc main_arg3)
abbrev pE : Cert.Spec.SE.Idx → EReal := V0 (Proc.devRef .tc main_arg4)
abbrev pA : Cert.Spec.SE.Idx → EReal := V0 (Proc.devRef .tc main_arg5)
abbrev pI : Cert.Spec.SE.Idx → EReal := V0 (Proc.devRef .tc main_arg6)
abbrev dirs : Cert.Spec.SE3.Idx → EReal := V0 (Proc.devRef .tc main_arg7)
abbrev conn : IVec Cert.Spec.SE2 32 := V0 (Proc.devRef .tc main_arg11)

theorem uphys_apply (n : Fin 1000000) (k : Fin 3) :
    res_main_v3 V0 (ix2 n k) = Cert.Spec.uphys (pred V0) (uc V0) (th V0) n k := by
  unfold res_main_v3 Cert.Spec.uphys
  refine congrArg (fun t : EReal => pred V0 (ix2 n k) * t) ?_
  rw [show (ix2 n k : S1000000x3.Idx) = ij n k from funext fun b => match b with | ⟨0, _⟩ => rfl | ⟨1, _⟩ => rfl,
    bcast_cols, GatherRow.ofFin_eq_ix1]
  refine (concatenate_ofFn_unit_apply (t := S3) 0 ![uc V0, uc V0, th V0] concatenates_S1_S1_S1_S3_d0 rfl rfl (ix1 k) k rfl
    (ix1 (0 : Fin 1)) fun b hb => absurd (Subsingleton.elim _ _) hb).trans ?_
  match k with
  | ⟨0, _⟩ | ⟨1, _⟩ | ⟨2, _⟩ => rfl

variable (hr : ∀ i : Cert.Spec.SE2.Idx, 0 ≤ (conn V0 i).toInt ∧ (conn V0 i).toInt < 1000000)
include hr

theorem nodeCol_apply (e : Fin 2000000) (j : Fin 2) (C : IVec S2000000 32) (hC : C (ix1 e) = conn V0 (ix2 e j))
    (o : Nat) (ho : o < 3) (h : S2000000x3.Slices ![0, o] S2000000x1) (h' : S2000000x1.ShapeCasts S2000000) :
    shapeCast S2000000 (extractStridedSlice S2000000x1 ![0, o]
      (Host.gather gather_S1000000x3_S2000000x1_S2000000x3_1_0_n_n_0_1_13 (res_main_v3 V0)
        (broadcastInDim S2000000x1 ![0] bcast_S2000000_S2000000x1_0
          (select (cmpi .slt C (broadcastInDim S2000000 ![] bcast_S_S2000000 (constantI S_ 32 0#32)))
            (addi C (broadcastInDim S2000000 ![] bcast_S_S2000000 (constantI S_ 32 1000000#32))) C))) h) h' (ix1 e)
      = Cert.Spec.uphys (pred V0) (uc V0) (th V0) (Cert.Spec.node (conn V0) e j) ⟨o, ho⟩ :=
  (col_apply o ho _ h h' e).trans ((GatherRow.gatherRow_at _ C e _ _ hC (hr _)).trans (uphys_apply V0 _ _))

theorem v143_eq : res_main_v143 V0 = mulf (subf (Host.scatterAdd scatter_S1000000x3_S4000000x1_S4000000x3_1_0_0_1
      (broadcastInDim S1000000x3 ![] bcast_S_S1000000x3 (constant S_ .f32 0x00000000#32))
      (broadcastInDim S4000000x1 ![0] bcast_S4000000_S4000000x1_0 (concatenate S4000000 0
        [⟨S2000000, res_main_v5 V0⟩, ⟨S2000000, res_main_v7 V0⟩] concatenates_S2000000_S2000000_S4000000_d0))
      (Cert.Spec.updates (pred V0) (uc V0) (th V0) (len V0) (pE V0) (pA V0) (pI V0) (dirs V0) (conn V0)))
      (V0 (Proc.devRef .tc main_arg8))) (res_main_v142 V0) := by
  unfold res_main_v143
  refine congrArg (fun W => mulf (subf (Host.scatterAdd _ _ _ W) _) _) (funext fun y => ?_)
  obtain ⟨r, k, rfl⟩ : ∃ (r : Fin 4000000) (k : Fin 3), y = ix2 r k := ⟨y 0, y 1, eq_ix2 y⟩
  refine blocks_apply (Cert.Spec.force (pred V0) (uc V0) (th V0) (len V0) (pE V0) (pA V0) (pI V0) (dirs V0) (conn V0))
    _ _ _ _ _ _ ?_ ?_ ?_ ?_ ?_ ?_ r k <;> exact fun e =>
      have A := nodeCol_apply V0 hr e 0 (res_main_v5 V0) (col_apply 0 (by omega) _ _ _ e)
      have B := nodeCol_apply V0 hr e 1 (res_main_v7 V0) (col_apply 1 (by omega) _ _ _ e)
      stream_eq rfl (col_apply 0 (by omega) _ _ _ e) (col_apply 2 (by omega) _ _ _ e)
        (A 0 (by omega) _ _) (A 1 (by omega) _ _) (A 2 (by omega) _ _) (B 0 (by omega) _ _) (B 1 (by omega) _ _) (B 2 (by omega) _ _)

end AtIdeal

end Cert.ReferenceIdeal.RefUpd

end
-- ==== Proof.RefResult.lean ====
import proofs.«429766_j12146167513806_2_alg».proof.Proof.RefRunDefs
import proofs.«429766_j12146167513806_2_alg».proof.Proof.RefUpd
import proofs.«429766_j12146167513806_2_alg».proof.Proof.SumBridge

noncomputable section

namespace Cert.ReferenceIdeal.RRes

open Cert.ReferenceIdeal Cert.ReferenceIdeal.Gen Cert.ReferenceIdeal.Value Cert.ReferenceIdeal.RefUpd
open Idealize.ShloMosaic Idealize.ShloMosaic.TcCoe Idealize.SL.Sem Idealize.ShloMosaic.StableHlo
open Idealize.ShloMosaic.ValueIdx

theorem ref_result (V0 : Valuation τ sig (Elt Ideal))
    (hr : ∀ i : Cert.Spec.SE2.Idx, 0 ≤ ((V0 (Proc.devRef .tc main_arg11) : IVec Cert.Spec.SE2 32) i).toInt
      ∧ ((V0 (Proc.devRef .tc main_arg11) : IVec Cert.Spec.SE2 32) i).toInt < 1000000) :
    Host.divf (F := Ideal)
        (Host.reduceAdd (F := Ideal) (mulf (F := Ideal) (φ := .f32) (res_main_v143 (F := Ideal) V0) (res_main_v143 (F := Ideal) V0))
          (constant (F := Ideal) S_ .f32 0x00000000#32) reducesTo_S1000000x3_S_d0_1 h_S_)
        (maximumf (F := Ideal)
          (Host.reduceAdd (F := Ideal) (mulf (F := Ideal) (φ := .f32) (res_main_v144 (F := Ideal) V0) (res_main_v144 (F := Ideal) V0))
            (constant (F := Ideal) S_ .f32 0x00000000#32) reducesTo_S1000000x3_S_d0_1 h_S_)
          (constant (F := Ideal) S_ .f32 0x0DA24260#32))
      = fun _ => Cert.Spec.lossOf
          (mulf (F := Ideal) (φ := .f32)
            (subf (F := Ideal) (φ := .f32)
              (Host.scatterAdd (F := Ideal) scatter_S1000000x3_S4000000x1_S4000000x3_1_0_0_1
                (broadcastInDim S1000000x3 ![] bcast_S_S1000000x3 (constant (F := Ideal) S_ .f32 0x00000000#32))
                (broadcastInDim S4000000x1 ![0] bcast_S4000000_S4000000x1_0
                  (concatenate S4000000 0 [⟨S2000000, res_main_v5 (F := Ideal) V0⟩, ⟨S2000000, res_main_v7 (F := Ideal) V0⟩]
                    concatenates_S2000000_S2000000_S4000000_d0))
                (Cert.Spec.updates
                  (V0 (Proc.devRef .tc main_arg0) : Cert.Spec.SN3.Idx → EReal)
                  (V0 (Proc.devRef .tc main_arg1) : Cert.Spec.S1.Idx → EReal)
                  (V0 (Proc.devRef .tc main_arg2) : Cert.Spec.S1.Idx → EReal)
                  (V0 (Proc.devRef .tc main_arg3) : Cert.Spec.SE.Idx → EReal)
                  (V0 (Proc.devRef .tc main_arg4) : Cert.Spec.SE.Idx → EReal)
                  (V0 (Proc.devRef .tc main_arg5) : Cert.Spec.SE.Idx → EReal)
                  (V0 (Proc.devRef .tc main_arg6) : Cert.Spec.SE.Idx → EReal)
                  (V0 (Proc.devRef .tc main_arg7) : Cert.Spec.SE3.Idx → EReal)
                  (V0 (Proc.devRef .tc main_arg11) : IVec Cert.Spec.SE2 32)))
              (V0 (Proc.devRef .tc main_arg8)))
            (res_main_v142 (F := Ideal) V0))
          (mulf (F := Ideal) (φ := .f32) (V0 (Proc.devRef .tc main_arg8)) (res_main_v142 (F := Ideal) V0)) := by
  rw [v143_eq V0 hr]
  unfold res_main_v144
  exact Cert.SumBridge.ref_loss _ _ reducesTo_S1000000x3_S_d0_1 h_S_

end Cert.ReferenceIdeal.RRes

end
-- ==== Proof.PreRange.lean ====
import proofs.«429766_j12146167513806_2_alg».proof.Defs
import proofs.«429766_j12146167513806_2_alg».proof.Proof.Gen.Pre_finite_inputs
import Idealize.ShloMosaic.Lib.ReduceAll
import Idealize.ShloMosaic.Lib.StableHlo.Predicate
import Idealize.ShloMosaic.Lib.ValueIdx

noncomputable section

namespace Cert.Proof.PreRange

open Idealize.ShloMosaic Idealize.ShloMosaic.ValueIdx
open Cert.Pre_finite_inputs

instance : Subsingleton S_.Idx := ⟨fun a b => funext fun d => d.elim0⟩

theorem part3_range [Cert.Pre_finite_inputs.Facts] (conn : IVec S2000000x2 32) (v48 : IVec S_ 1)
    (v49 v50 : FVec Ideal S1000000x1 .f32)
    (e : fn_part3 (F := Ideal) conn v48 v49 v50 ix0 = 1#1) (i : S2000000x2.Idx) :
    0 ≤ (conn i).toInt ∧ (conn i).toInt < 1000000 := by
  unfold fn_part3 at e
  have e2 := (IntOp.andi_eq_one.1 e).2
  have e3 := Host.reduce_andi_all _ _ _ _ _ e2 i
  obtain ⟨hge, hlt⟩ := IntOp.andi_eq_one.1 e3
  have h0 : (0#32 : BitVec 32).toInt ≤ (conn i).toInt := IntOp.cmpi_sge.1 hge
  have h1 : (conn i).toInt < (1000000#32 : BitVec 32).toInt := IntOp.cmpi_slt.1 hlt
  rw [StableHlo.Predicate.toInt_ofNat_small 0 (by norm_num)] at h0
  rw [StableHlo.Predicate.toInt_ofNat_small 1000000 (by norm_num)] at h1
  exact ⟨by exact_mod_cast h0, by exact_mod_cast h1⟩

theorem conn_in_range [Cert.Pre_finite_inputs.Facts]
    (a0 : FVec Ideal S1000000x3 .f32) (a1 : FVec Ideal S1 .f32) (a2 : FVec Ideal S1 .f32)
    (a3 : FVec Ideal S2000000 .f32) (a4 : FVec Ideal S2000000 .f32) (a5 : FVec Ideal S2000000 .f32)
    (a6 : FVec Ideal S2000000 .f32) (a7 : FVec Ideal S2000000x3 .f32) (a8 : FVec Ideal S1000000x3 .f32)
    (a9 : FVec Ideal S1000000x1 .f32) (a10 : FVec Ideal S1000000x1 .f32) (conn : IVec S2000000x2 32)
    (h : Cert.Pre_finite_inputs.fn (F := Ideal) a0 a1 a2 a3 a4 a5 a6 a7 a8 a9 a10 conn = (fun _ => 1#1)) :
    ∀ i : S2000000x2.Idx, 0 ≤ (conn i).toInt ∧ (conn i).toInt < 1000000 := by
  intro i
  have e := congrFun h ix0
  unfold fn fn_part1 fn_part2 at e
  exact part3_range conn _ _ _ e i

end Cert.Proof.PreRange

end
-- ==== Proof.Algebraic.lean ====
import proofs.«429766_j12146167513806_2_alg».proof.Defs
import proofs.«429766_j12146167513806_2_alg».proof.Proof.RefRun
import proofs.«429766_j12146167513806_2_alg».proof.Proof.FrameAsm
import proofs.«429766_j12146167513806_2_alg».proof.Proof.KResult
import proofs.«429766_j12146167513806_2_alg».proof.Proof.RefResult
import proofs.«429766_j12146167513806_2_alg».proof.Proof.PreRange

set_option maxRecDepth 8192

noncomputable section

open Idealize.ShloMosaic Idealize.ShloMosaic.TcCoe Idealize.SL.Sem Idealize.ShloMosaic.StableHlo

namespace Cert.Proof.Alg

theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KV.InRange m c :=
  Cert.Proof.PreRange.conn_in_range _ _ _ _ _ _ _ _ _ _ _ _ (hpre c)

section Cross

variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

set_option maxHeartbeats 400000 in

theorem cross_mask (h9 : (V0 (Proc.devRef .tc Cert.ReferenceIdeal.main_arg9) : Cert.Spec.SN1.Idx → EReal) = Cert.KernelIdeal.KV.bd m c)
    (h10 : (V0 (Proc.devRef .tc Cert.ReferenceIdeal.main_arg10) : Cert.Spec.SN1.Idx → EReal) = Cert.KernelIdeal.KV.br m c) :
    (Cert.ReferenceIdeal.Value.res_main_v142 (F := Ideal) V0 : Cert.Spec.SN3.Idx → EReal) = Cert.KernelIdeal.KMid.maskT m c := by
  unfold Cert.ReferenceIdeal.Value.res_main_v142 Cert.KernelIdeal.KMid.maskT
  rw [h9, h10]

set_option maxHeartbeats 400000 in

theorem cross_resid (h8 : (V0 (Proc.devRef .tc Cert.ReferenceIdeal.main_arg8) : Cert.Spec.SN3.Idx → EReal) = Cert.KernelIdeal.KV.fext m c)
    (h9 : (V0 (Proc.devRef .tc Cert.ReferenceIdeal.main_arg9) : Cert.Spec.SN1.Idx → EReal) = Cert.KernelIdeal.KV.bd m c)
    (h10 : (V0 (Proc.devRef .tc Cert.ReferenceIdeal.main_arg10) : Cert.Spec.SN1.Idx → EReal) = Cert.KernelIdeal.KV.br m c)
    (h11 : (V0 (Proc.devRef .tc Cert.ReferenceIdeal.main_arg11) : IVec Cert.Spec.SE2 32) = Cert.KernelIdeal.KV.conn m c)
    (upd : Cert.Spec.S2E3.Idx → EReal) :
    ((mulf (F := Ideal)
            (subf (F := Ideal)
              (Host.scatterAdd (F := Ideal) Cert.ReferenceIdeal.scatter_S1000000x3_S4000000x1_S4000000x3_1_0_0_1
                (broadcastInDim Cert.ReferenceIdeal.S1000000x3 ![] Cert.ReferenceIdeal.Gen.bcast_S_S1000000x3 (constant (F := Ideal) Cert.ReferenceIdeal.S_ .f32 0x00000000#32))
                (broadcastInDim Cert.ReferenceIdeal.S4000000x1 ![0] Cert.ReferenceIdeal.Gen.bcast_S4000000_S4000000x1_0
                  (concatenate Cert.ReferenceIdeal.S4000000 0 [⟨Cert.ReferenceIdeal.S2000000, Cert.ReferenceIdeal.Value.res_main_v5 (F := Ideal) V0⟩, ⟨Cert.ReferenceIdeal.S2000000, Cert.ReferenceIdeal.Value.res_main_v7 (F := Ideal) V0⟩]
                    Cert.ReferenceIdeal.Gen.concatenates_S2000000_S2000000_S4000000_d0))
                upd)
              (V0 (Proc.devRef .tc Cert.ReferenceIdeal.main_arg8)))
            (Cert.ReferenceIdeal.Value.res_main_v142 (F := Ideal) V0)) : Cert.Spec.SN3.Idx → EReal)
      = Cert.KernelIdeal.KRes.residOf m c upd := by
  unfold Cert.KernelIdeal.KRes.residOf Cert.ReferenceIdeal.Value.res_main_v5 Cert.ReferenceIdeal.Value.res_main_v7
    Cert.ReferenceIdeal.Value.res_main_v142 Cert.KernelIdeal.KMid.nA Cert.KernelIdeal.KMid.nB Cert.KernelIdeal.KMid.maskT
  rw [h8, h9, h10, h11]
  rfl

set_option maxHeartbeats 400000 in

theorem cross (h0 : (V0 (Proc.devRef .tc Cert.ReferenceIdeal.main_arg0) : Cert.Spec.SN3.Idx → EReal) = Cert.KernelIdeal.KV.pred m c)
    (h1 : (V0 (Proc.devRef .tc Cert.ReferenceIdeal.main_arg1) : Cert.Spec.S1.Idx → EReal) = Cert.KernelIdeal.KV.uc m c)
    (h2 : (V0 (Proc.devRef .tc Cert.ReferenceIdeal.main_arg2) : Cert.Spec.S1.Idx → EReal) = Cert.KernelIdeal.KV.th m c)
    (h3 : (V0 (Proc.devRef .tc Cert.ReferenceIdeal.main_arg3) : Cert.Spec.SE.Idx → EReal) = Cert.KernelIdeal.KV.len m c)
    (h4 : (V0 (Proc.devRef .tc Cert.ReferenceIdeal.main_arg4) : Cert.Spec.SE.Idx → EReal) = Cert.KernelIdeal.KV.pE m c)
    (h5 : (V0 (Proc.devRef .tc Cert.ReferenceIdeal.main_arg5) : Cert.Spec.SE.Idx → EReal) = Cert.KernelIdeal.KV.pA m c)
    (h6 : (V0 (Proc.devRef .tc Cert.ReferenceIdeal.main_arg6) : Cert.Spec.SE.Idx → EReal) = Cert.KernelIdeal.KV.pI m c)
    (h7 : (V0 (Proc.devRef .tc Cert.ReferenceIdeal.main_arg7) : Cert.Spec.SE3.Idx → EReal) = Cert.KernelIdeal.KV.dirs m c)
    (h8 : (V0 (Proc.devRef .tc Cert.ReferenceIdeal.main_arg8) : Cert.Spec.SN3.Idx → EReal) = Cert.KernelIdeal.KV.fext m c)
    (h9 : (V0 (Proc.devRef .tc Cert.ReferenceIdeal.main_arg9) : Cert.Spec.SN1.Idx → EReal) = Cert.KernelIdeal.KV.bd m c)
    (h10 : (V0 (Proc.devRef .tc Cert.ReferenceIdeal.main_arg10) : Cert.Spec.SN1.Idx → EReal) = Cert.KernelIdeal.KV.br m c)
    (h11 : (V0 (Proc.devRef .tc Cert.ReferenceIdeal.main_arg11) : IVec Cert.Spec.SE2 32) = Cert.KernelIdeal.KV.conn m c) :
    (fun _ : Cert.ReferenceIdeal.S_.Idx => Cert.Spec.lossOf
          (mulf (F := Ideal)
            (subf (F := Ideal)
              (Host.scatterAdd (F := Ideal) Cert.ReferenceIdeal.scatter_S1000000x3_S4000000x1_S4000000x3_1_0_0_1
                (broadcastInDim Cert.ReferenceIdeal.S1000000x3 ![] Cert.ReferenceIdeal.Gen.bcast_S_S1000000x3 (constant (F := Ideal) Cert.ReferenceIdeal.S_ .f32 0x00000000#32))
                (broadcastInDim Cert.ReferenceIdeal.S4000000x1 ![0] Cert.ReferenceIdeal.Gen.bcast_S4000000_S4000000x1_0
                  (concatenate Cert.ReferenceIdeal.S4000000 0 [⟨Cert.ReferenceIdeal.S2000000, Cert.ReferenceIdeal.Value.res_main_v5 (F := Ideal) V0⟩, ⟨Cert.ReferenceIdeal.S2000000, Cert.ReferenceIdeal.Value.res_main_v7 (F := Ideal) V0⟩]
                    Cert.ReferenceIdeal.Gen.concatenates_S2000000_S2000000_S4000000_d0))
                (Cert.Spec.updates
                  (V0 (Proc.devRef .tc Cert.ReferenceIdeal.main_arg0) : Cert.Spec.SN3.Idx → EReal)
                  (V0 (Proc.devRef .tc Cert.ReferenceIdeal.main_arg1) : Cert.Spec.S1.Idx → EReal)
                  (V0 (Proc.devRef .tc Cert.ReferenceIdeal.main_arg2) : Cert.Spec.S1.Idx → EReal)
                  (V0 (Proc.devRef .tc Cert.ReferenceIdeal.main_arg3) : Cert.Spec.SE.Idx → EReal)
                  (V0 (Proc.devRef .tc Cert.ReferenceIdeal.main_arg4) : Cert.Spec.SE.Idx → EReal)
                  (V0 (Proc.devRef .tc Cert.ReferenceIdeal.main_arg5) : Cert.Spec.SE.Idx → EReal)
                  (V0 (Proc.devRef .tc Cert.ReferenceIdeal.main_arg6) : Cert.Spec.SE.Idx → EReal)
                  (V0 (Proc.devRef .tc Cert.ReferenceIdeal.main_arg7) : Cert.Spec.SE3.Idx → EReal)
                  (V0 (Proc.devRef .tc Cert.ReferenceIdeal.main_arg11) : IVec Cert.Spec.SE2 32)))
              (V0 (Proc.devRef .tc Cert.ReferenceIdeal.main_arg8)))
            (Cert.ReferenceIdeal.Value.res_main_v142 (F := Ideal) V0))
          (mulf (F := Ideal) (φ := .f32) (V0 (Proc.devRef .tc Cert.ReferenceIdeal.main_arg8)) (Cert.ReferenceIdeal.Value.res_main_v142 (F := Ideal) V0)))
      = fun _ => Cert.Spec.lossOf (Cert.KernelIdeal.KRes.residOf m c (Cert.Spec.updates (Cert.KernelIdeal.KV.pred m c) (Cert.KernelIdeal.KV.uc m c) (Cert.KernelIdeal.KV.th m c) (Cert.KernelIdeal.KV.len m c) (Cert.KernelIdeal.KV.pE m c) (Cert.KernelIdeal.KV.pA m c) (Cert.KernelIdeal.KV.pI m c) (Cert.KernelIdeal.KV.dirs m c) (Cert.KernelIdeal.KV.conn m c)))
          (mulf (F := Ideal) (φ := .f32) (Cert.KernelIdeal.KV.fext m c) (Cert.KernelIdeal.KMid.maskT m c)) := by
  unfold Cert.KernelIdeal.KRes.residOf Cert.ReferenceIdeal.Value.res_main_v5 Cert.ReferenceIdeal.Value.res_main_v7
    Cert.ReferenceIdeal.Value.res_main_v142 Cert.KernelIdeal.KMid.nA Cert.KernelIdeal.KMid.nB Cert.KernelIdeal.KMid.maskT
  rw [h0, h1, h2, h3, h4, h5, h6, h7, h8, h9, h10, h11]
  rfl

end Cross

set_option maxHeartbeats 1000000 in
theorem algebraic : Cert.algebraic_KernelIdeal_ReferenceIdeal := by
  intro m ρ m' ρ' hpre hagree
  refine ⟨_, (θ_run (Cert.KernelIdeal.defs (F := Ideal)) _ _).mono
      (fun _ h c => ⟨(h c).1.trans (Cert.KernelIdeal.KRes.kernel_result m c (inRange_of_pre m hpre c)), (h c).2⟩)
      (Cert.KernelIdeal.Asm.run_all (F := Ideal) m ρ), ?_⟩
  refine (θ_run (Cert.ReferenceIdeal.defs (F := Ideal)) _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  have hr := inRange_of_pre m hpre c
  unfold Cert.KernelIdeal.KV.InRange Cert.KernelIdeal.KV.conn at hr
  rw [← h11] at hr
  exact (Cert.ReferenceIdeal.RRes.ref_result (launchContents m' c) hr).trans
    (cross (launchContents m' c) m c h0 h1 h2 h3 h4 h5 h6 h7 h8 h9 h10 h11)

end Cert.Proof.Alg

end
-- ==== Proof.lean ====
import proofs.«429766_j12146167513806_2_alg».proof.Defs
import proofs.«429766_j12146167513806_2_alg».proof.Proof.Gen.Kernel
import proofs.«429766_j12146167513806_2_alg».proof.Proof.Gen.KernelIdeal
import proofs.«429766_j12146167513806_2_alg».proof.Proof.Gen.ReferenceIdeal
import proofs.«429766_j12146167513806_2_alg».proof.Proof.Gen.Pre_finite_inputs
import proofs.«429766_j12146167513806_2_alg».proof.Proof.Bits.FrameAsm
import proofs.«429766_j12146167513806_2_alg».proof.Proof.FrameAsm
import proofs.«429766_j12146167513806_2_alg».proof.Proof.RefFrame
import proofs.«429766_j12146167513806_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Asm.frame (F := Bits) m ρ,
    fun m ρ _ => Cert.KernelIdeal.Asm.frame (F := Ideal) m ρ,
    Cert.Proof.RefSide.frame_ri,
    trivial,
    Cert.Proof.Alg.algebraic⟩

end Cert.Proof

end
